-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x1 : Shape := ⟨2, ![65536, 1]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64x10 : Shape := ⟨3, ![5, 64, 10]⟩
abbrev S5x10 : Shape := ⟨2, ![5, 10]⟩
abbrev S1048576 : Shape := ⟨1, ![1048576]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64x10 : S_.BroadcastsInDim S5x64x10 (![] : Fin 0 → Fin S5x64x10.rank)
  reducesTo_S5x64x10_S_d0_1_2 : S5x64x10.ReducesTo [0, 1, 2] S_
  bcast_S_S5x10 : S_.BroadcastsInDim S5x10 (![] : Fin 0 → Fin S5x10.rank)
  reducesTo_S5x10_S_d0_1 : S5x10.ReducesTo [0, 1] S_

variable [Facts]

def fn_part2 {F : FTy → Type} [FloatOps F] (main_arg7 : FVec F S4x64 .f32) (main_arg8 : FVec F S5x64x10 .f32) (main_arg9 : FVec F S5x10 .f32) (main_v33 : IVec S_ 1) : IVec S_ 1 :=
  let main_v34 : FVec F S4x64 .f32 := Host.absf main_arg7
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S5x64x10 .f32 := Host.absf main_arg8
  let main_cst_14 : FVec F S_ .f32 := constant S_ .f32 0x7F800000#32
  let main_v40 : FVec F S5x64x10 .f32 := broadcastInDim S5x64x10 ![] bcast_S_S5x64x10 main_cst_14
  let main_v41 : IVec S5x64x10 1 := cmpf .olt main_v39 main_v40
  let main_c_15 : IVec S_ 1 := constantI S_ 1 1#1
  let main_v42 : IVec S_ 1 := (fun x v => Host.reduce IntOp.andi x v reducesTo_S5x64x10_S_d0_1_2 h_S_) main_v41 main_c_15
  let main_v43 : IVec S_ 1 := andi main_v38 main_v42
  let main_v44 : FVec F S5x10 .f32 := Host.absf main_arg9
  let main_cst_16 : FVec F S_ .f32 := constant S_ .f32 0x7F800000#32
  let main_v45 : FVec F S5x10 .f32 := broadcastInDim S5x10 ![] bcast_S_S5x10 main_cst_16
  let main_v46 : IVec S5x10 1 := cmpf .olt main_v44 main_v45
  let main_c_17 : IVec S_ 1 := constantI S_ 1 1#1
  let main_v47 : IVec S_ 1 := (fun x v => Host.reduce IntOp.andi x v reducesTo_S5x10_S_d0_1 h_S_) main_v46 main_c_17
  let main_v48 : IVec S_ 1 := andi main_v43 main_v47
  main_v48

def fn_part1 {F : FTy → Type} [FloatOps F] (main_arg4 : FVec F S4x64x64 .f32) (main_arg5 : FVec F S4x64 .f32) (main_arg6 : FVec F S4x64x64 .f32) (main_arg7 : FVec F S4x64 .f32) (main_arg8 : FVec F S5x64x10 .f32) (main_arg9 : FVec F S5x10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x64 .f32 := Host.absf main_arg6
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S65536x128 .f32) (main_arg1 : FVec F S65536x1 .f32) (main_arg2 : FVec F S128x64 .f32) (main_arg3 : FVec F S64 .f32) (main_arg4 : FVec F S4x64x64 .f32) (main_arg5 : FVec F S4x64 .f32) (main_arg6 : FVec F S4x64x64 .f32) (main_arg7 : FVec F S4x64 .f32) (main_arg8 : FVec F S5x64x10 .f32) (main_arg9 : FVec F S5x10 .f32) (main_arg10 : IVec S1048576 32) (main_arg11 : IVec S1048576 32) (main_arg12 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S65536x128 : Shape := ⟨2, ![65536, 128]⟩
abbrev S65536x1 : Shape := ⟨2, ![65536, 1]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64x10 : Shape := ⟨3, ![5, 64, 10]⟩
abbrev S5x10 : Shape := ⟨2, ![5, 10]⟩
abbrev S1048576 : Shape := ⟨1, ![1048576]⟩
abbrev S65536 : Shape := ⟨1, ![65536]⟩
abbrev S1x64 : Shape := ⟨2, ![1, 64]⟩
abbrev S65536x64 : Shape := ⟨2, ![65536, 64]⟩
abbrev S4096x128 : Shape := ⟨2, ![4096, 128]⟩
abbrev S4096x64 : Shape := ⟨2, ![4096, 64]⟩
abbrev S_ : Shape := ⟨0, ![]⟩
abbrev S1048576x1 : Shape := ⟨2, ![1048576, 1]⟩
abbrev S1048576x64 : Shape := ⟨2, ![1048576, 64]⟩
abbrev S1x64x64 : Shape := ⟨3, ![1, 64, 64]⟩
abbrev S64x64 : Shape := ⟨2, ![64, 64]⟩
abbrev S4096x1 : Shape := ⟨2, ![4096, 1]⟩
abbrev S1x65536x64 : Shape := ⟨3, ![1, 65536, 64]⟩
abbrev S5x65536x64 : Shape := ⟨3, ![5, 65536, 64]⟩
abbrev S5x1x10 : Shape := ⟨3, ![5, 1, 10]⟩
abbrev S512x10 : Shape := ⟨2, ![512, 10]⟩
abbrev S1x1024x64 : Shape := ⟨3, ![1, 1024, 64]⟩
abbrev S1024 : Shape := ⟨1, ![1024]⟩
abbrev S1x64x10 : Shape := ⟨3, ![1, 64, 10]⟩
abbrev S1x1x10 : Shape := ⟨3, ![1, 1, 10]⟩
abbrev S512x64 : Shape := ⟨2, ![512, 64]⟩
abbrev S1024x64 : Shape := ⟨2, ![1024, 64]⟩
abbrev S512x1 : Shape := ⟨2, ![512, 1]⟩
abbrev S1x1024 : Shape := ⟨2, ![1, 1024]⟩
abbrev S512x1024 : Shape := ⟨2, ![512, 1024]⟩
abbrev S64x10 : Shape := ⟨2, ![64, 10]⟩
abbrev S1x10 : Shape := ⟨2, ![1, 10]⟩

abbrev nBuf : Space → Nat
  | .hbm => 119
  | .vmem => 64
  | .smem => 0
  | _ => 0

abbrev bufTy : (tb : Table) → Fin (tcTables nBuf tb) → BufTy
  | .hbm, ⟨0, _⟩ => ⟨S65536x128, .f32⟩
  | .hbm, ⟨1, _⟩ => ⟨S65536x1, .f32⟩
  | .hbm, ⟨2, _⟩ => ⟨S128x64, .f32⟩
  | .hbm, ⟨3, _⟩ => ⟨S64, .f32⟩
  | .hbm, ⟨4, _⟩ => ⟨S4x64x64, .f32⟩
  | .hbm, ⟨5, _⟩ => ⟨S4x64, .f32⟩
  | .hbm, ⟨6, _⟩ => ⟨S4x64x64, .f32⟩
  | .hbm, ⟨7, _⟩ => ⟨S4x64, .f32⟩
  | .hbm, ⟨8, _⟩ => ⟨S5x64x10, .f32⟩
  | .hbm, ⟨9, _⟩ => ⟨S5x10, .f32⟩
  | .hbm, ⟨10, _⟩ => ⟨S1048576, .i32⟩
  | .hbm, ⟨11, _⟩ => ⟨S1048576, .i32⟩
  | .hbm, ⟨12, _⟩ => ⟨S65536, .i32⟩
  | .hbm, ⟨13, _⟩ => ⟨S1x64, .f32⟩
  | .hbm, ⟨14, _⟩ => ⟨S65536x64, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x64, .f32⟩
  | .hbm, ⟨24, _⟩ => ⟨S_, .f32⟩
  | .hbm, ⟨25, _⟩ => ⟨S65536x64, .f32⟩
  | .hbm, ⟨26, _⟩ => ⟨S1048576x1, .i32⟩
  | .hbm, ⟨27, _⟩ => ⟨S65536x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S1x64x64, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S65536x64, .f32⟩
  | .hbm, ⟨39, _⟩ => ⟨S_, .i32⟩
  | .hbm, ⟨40, _⟩ => ⟨S1048576, .i32⟩
  | .hbm, ⟨41, _⟩ => ⟨S1048576, .i1⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S1048576, .i32⟩
  | .hbm, ⟨46, _⟩ => ⟨S1048576x1, .i32⟩
  | .hbm, ⟨47, _⟩ => ⟨S1048576x64, .f32⟩
  | .hbm, ⟨48, _⟩ => ⟨S_, .f32⟩
  | .hbm, ⟨49, _⟩ => ⟨S65536x64, .f32⟩
  | .hbm, ⟨50, _⟩ => ⟨S1048576x1, .i32⟩
  | .hbm, ⟨51, _⟩ => ⟨S65536x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64x64, .f32⟩
  | .hbm, ⟨59, _⟩ => ⟨S64x64, .f32⟩
  | .hbm, ⟨60, _⟩ => ⟨S1x64x64, .f32⟩
  | .hbm, ⟨61, _⟩ => ⟨S64x64, .f32⟩
  | .hbm, ⟨62, _⟩ => ⟨S65536x64, .f32⟩
  | .hbm, ⟨63, _⟩ => ⟨S_, .i32⟩
  | .hbm, ⟨64, _⟩ => ⟨S1048576, .i32⟩
  | .hbm, ⟨65, _⟩ => ⟨S1048576, .i1⟩
  | .hbm, ⟨66, _⟩ => ⟨S_, .i32⟩
  | .hbm, ⟨67, _⟩ => ⟨S1048576, .i32⟩
  | .hbm, ⟨68, _⟩ => ⟨S1048576, .i32⟩
  | .hbm, ⟨69, _⟩ => ⟨S1048576, .i32⟩
  | .hbm, ⟨70, _⟩ => ⟨S1048576x1, .i32⟩
  | .hbm, ⟨71, _⟩ => ⟨S1048576x64, .f32⟩
  | .hbm, ⟨72, _⟩ => ⟨S_, .f32⟩
  | .hbm, ⟨73, _⟩ => ⟨S65536x64, .f32⟩
  | .hbm, ⟨74, _⟩ => ⟨S1048576x1, .i32⟩
  | .hbm, ⟨75, _⟩ => ⟨S65536x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S1x64x64, .f32⟩
  | .hbm, ⟨83, _⟩ => ⟨S64x64, .f32⟩
  | .hbm, ⟨84, _⟩ => ⟨S1x64x64, .f32⟩
  | .hbm, ⟨85, _⟩ => ⟨S64x64, .f32⟩
  | .hbm, ⟨86, _⟩ => ⟨S65536x64, .f32⟩
  | .hbm, ⟨87, _⟩ => ⟨S_, .i32⟩
  | .hbm, ⟨88, _⟩ => ⟨S1048576, .i32⟩
  | .hbm, ⟨89, _⟩ => ⟨S1048576, .i1⟩
  | .hbm, ⟨90, _⟩ => ⟨S_, .i32⟩
  | .hbm, ⟨91, _⟩ => ⟨S1048576, .i32⟩
  | .hbm, ⟨92, _⟩ => ⟨S1048576, .i32⟩
  | .hbm, ⟨93, _⟩ => ⟨S1048576, .i32⟩
  | .hbm, ⟨94, _⟩ => ⟨S1048576x1, .i32⟩
  | .hbm, ⟨95, _⟩ => ⟨S1048576x64, .f32⟩
  | .hbm, ⟨96, _⟩ => ⟨S_, .f32⟩
  | .hbm, ⟨97, _⟩ => ⟨S65536x64, .f32⟩
  | .hbm, ⟨98, _⟩ => ⟨S1048576x1, .i32⟩
  | .hbm, ⟨99, _⟩ => ⟨S65536x64, .f32⟩
  | .hbm, ⟨100, _⟩ => ⟨S1x64, .f32⟩
  | .hbm, ⟨101, _⟩ => ⟨S64, .f32⟩
  | .hbm, ⟨102, _⟩ => ⟨S1x64, .f32⟩
  | .hbm, ⟨103, _⟩ => ⟨S1x64, .f32⟩
  | .hbm, ⟨104, _⟩ => ⟨S64, .f32⟩
  | .hbm, ⟨105, _⟩ => ⟨S1x64, .f32⟩
  | .hbm, ⟨106, _⟩ => ⟨S1x64x64, .f32⟩
  | .hbm, ⟨107, _⟩ => ⟨S64x64, .f32⟩
  | .hbm, ⟨108, _⟩ => ⟨S1x64x64, .f32⟩
  | .hbm, ⟨109, _⟩ => ⟨S64x64, .f32⟩
  | .hbm, ⟨110, _⟩ => ⟨S65536x64, .f32⟩
  | .hbm, ⟨111, _⟩ => ⟨S1x65536x64, .f32⟩
  | .hbm, ⟨112, _⟩ => ⟨S1x65536x64, .f32⟩
  | .hbm, ⟨113, _⟩ => ⟨S1x65536x64, .f32⟩
  | .hbm, ⟨114, _⟩ => ⟨S1x65536x64, .f32⟩
  | .hbm, ⟨115, _⟩ => ⟨S1x65536x64, .f32⟩
  | .hbm, ⟨116, _⟩ => ⟨S5x65536x64, .f32⟩
  | .hbm, ⟨117, _⟩ => ⟨S5x1x10, .f32⟩
  | .hbm, ⟨118, _⟩ => ⟨S512x10, .f32⟩
  | .local _ .vmem, ⟨0, _⟩ => ⟨S4096x128, .f32⟩
  | .local _ .vmem, ⟨1, _⟩ => ⟨S4096x128, .f32⟩
  | .local _ .vmem, ⟨2, _⟩ => ⟨S128x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x1, .f32⟩
  | .local _ .vmem, ⟨11, _⟩ => ⟨S4096x1, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x1, .f32⟩
  | .local _ .vmem, ⟨23, _⟩ => ⟨S4096x1, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S4096x1, .f32⟩
  | .local _ .vmem, ⟨35, _⟩ => ⟨S4096x1, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S4096x64, .f32⟩
  | .local _ .vmem, ⟨41, _⟩ => ⟨S4096x64, .f32⟩
  | .local _ .vmem, ⟨42, _⟩ => ⟨S4096x64, .f32⟩
  | .local _ .vmem, ⟨43, _⟩ => ⟨S4096x64, .f32⟩
  | .local _ .vmem, ⟨44, _⟩ => ⟨S4096x64, .f32⟩
  | .local _ .vmem, ⟨45, _⟩ => ⟨S4096x64, .f32⟩
  | .local _ .vmem, ⟨46, _⟩ => ⟨S4096x1, .f32⟩
  | .local _ .vmem, ⟨47, _⟩ => ⟨S4096x1, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S4096x64, .f32⟩
  | .local _ .vmem, ⟨53, _⟩ => ⟨S4096x64, .f32⟩
  | .local _ .vmem, ⟨54, _⟩ => ⟨S1x1024x64, .f32⟩
  | .local _ .vmem, ⟨55, _⟩ => ⟨S1x1024x64, .f32⟩
  | .local _ .vmem, ⟨56, _⟩ => ⟨S1024, .i32⟩
  | .local _ .vmem, ⟨57, _⟩ => ⟨S1024, .i32⟩
  | .local _ .vmem, ⟨58, _⟩ => ⟨S1x64x10, .f32⟩
  | .local _ .vmem, ⟨59, _⟩ => ⟨S1x64x10, .f32⟩
  | .local _ .vmem, ⟨60, _⟩ => ⟨S1x1x10, .f32⟩
  | .local _ .vmem, ⟨61, _⟩ => ⟨S1x1x10, .f32⟩
  | .local _ .vmem, ⟨62, _⟩ => ⟨S512x10, .f32⟩
  | .local _ .vmem, ⟨63, _⟩ => ⟨S512x64, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_7 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_9 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_scratch0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61
abbrev cc5_sem4_0 : DmaSem sig := 62

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4096x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨2, ![5, 64], ![false, false]⟩

def k5_cond2 (i : grid5.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k5_cond3 (i : grid5.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_11 : BitVec 32 := 0#32
  let v28 : BitVec 1 := Scalar.cmpi .ne v27 c0_i32_11
  v28

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x64x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1x10 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 1 → Memref sig .tc .vmem S512x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

class Facts₀ : Prop where
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4096x1_S4096x1_0_0 : ∀ a, (![0, 0] : Fin 2 → Nat) a + S4096x1.size a ≤ S4096x1.size a
  h_S4096x1 : 0 < S4096x1.numel
  broadcasts_S4096x1_S4096x64 : S4096x1.Broadcasts S4096x64
  slices_S4x64_S1x64_1_0 : S4x64.Slices ![1, 0] S1x64
  slices_S4x64x64_S1x64x64_1_0_0 : S4x64x64.Slices ![1, 0, 0] S1x64x64
  slices_S4x64_S1x64_2_0 : S4x64.Slices ![2, 0] S1x64
  slices_S4x64x64_S1x64x64_2_0_0 : S4x64x64.Slices ![2, 0, 0] S1x64x64
  slices_S4x64_S1x64_3_0 : S4x64.Slices ![3, 0] S1x64
  slices_S4x64x64_S1x64x64_3_0_0 : S4x64x64.Slices ![3, 0, 0] S1x64x64
  bcast_S65536x64_S1x65536x64_1_2 : S65536x64.BroadcastsInDim S1x65536x64 (![1, 2] : Fin 2 → Fin S1x65536x64.rank)
  concatenates_S1x65536x64_S1x65536x64_S1x65536x64_S1x65536x64_S1x65536x64_S5x65536x64_d0 : Shape.Concatenates [S1x65536x64, S1x65536x64, S1x65536x64, S1x65536x64, S1x65536x64] S5x65536x64 0
  shapeCasts_S5x10_S5x1x10 : S5x10.ShapeCasts S5x1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x10_S512x10_0_0 : ∀ a, (![0, 0] : Fin 2 → Nat) a + S512x10.size a ≤ S512x10.size a
  h_S512x10 : 0 < S512x10.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1024_S1024_0 : ∀ a, (![0] : Fin 1 → Nat) a + S1024.size a ≤ S1024.size a
  h_S1024 : 0 < S1024.numel
  iota_S512x1_d0_w32 : S512x1.Iotas .tc 32 [0]
  shapeCasts_S1024_S1x1024 : S1024.ShapeCasts S1x1024
  broadcasts_S512x1_S512x1024 : S512x1.Broadcasts S512x1024
  broadcasts_S1x1024_S512x1024 : S1x1024.Broadcasts S512x1024
  natLt_1_32 : 1 < 32
  inb_S1x64x10_S1x64x10_0_0_0 : ∀ a, (![0, 0, 0] : Fin 3 → Nat) a + S1x64x10.size a ≤ S1x64x10.size a
  h_S1x64x10 : 0 < S1x64x10.numel
  shapeCasts_S1x64x10_S64x10 : S1x64x10.ShapeCasts S64x10
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  broadcasts_S1x10_S512x10 : S1x10.Broadcasts S512x10
  shapeCasts_S512x10_S512x10 : S512x10.ShapeCasts S512x10
  dot_S4096x128_S128x64_S4096x64_1_0_0_1_n_n_wf : DotDims.WF S4096x128 S128x64 S4096x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x64_S64x64_S4096x64_1_0_0_1_n_n_wf : DotDims.WF S4096x64 S64x64 S4096x64 [1] [0] [0] [1] [] []
  dot_S512x1024_S1024x64_S512x64_1_0_0_1_n_n_wf : DotDims.WF S512x1024 S1024x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S65536x64.size a
  hwx0_3 : ∀ i : grid0.Coords, EltTy.bits .f32 = 32 ∨ (Rect.block (s := S65536x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S65536x64.size a
  hwx1_1 : ∀ i : grid1.Coords, EltTy.bits .f32 = 32 ∨ (Rect.block (s := S65536x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S65536x1.size a
  hwx1_2 : ∀ i : grid1.Coords, EltTy.bits .f32 = 32 ∨ (Rect.block (s := S65536x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x64.size a ≤ S65536x64.size a
  hwx1_7 : ∀ i : grid1.Coords, EltTy.bits .f32 = 32 ∨ (Rect.block (s := S65536x64) S4096x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S65536x64.size a
  hwx2_0 : ∀ i : grid2.Coords, EltTy.bits .f32 = 32 ∨ (Rect.block (s := S65536x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S65536x64.size a
  hwx2_1 : ∀ i : grid2.Coords, EltTy.bits .f32 = 32 ∨ (Rect.block (s := S65536x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S65536x1.size a
  hwx2_2 : ∀ i : grid2.Coords, EltTy.bits .f32 = 32 ∨ (Rect.block (s := S65536x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x64.size a ≤ S65536x64.size a
  hwx2_7 : ∀ i : grid2.Coords, EltTy.bits .f32 = 32 ∨ (Rect.block (s := S65536x64) S4096x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S65536x64.size a
  hwx3_1 : ∀ i : grid3.Coords, EltTy.bits .f32 = 32 ∨ (Rect.block (s := S65536x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x1.size a ≤ S65536x1.size a
  hwx3_2 : ∀ i : grid3.Coords, EltTy.bits .f32 = 32 ∨ (Rect.block (s := S65536x1) S4096x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x64.size a ≤ S65536x64.size a
  hwx3_7 : ∀ i : grid3.Coords, EltTy.bits .f32 = 32 ∨ (Rect.block (s := S65536x64) S4096x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S65536x64.size a
  hwx4_0 : ∀ i : grid4.Coords, EltTy.bits .f32 = 32 ∨ (Rect.block (s := S65536x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S65536x64.size a
  hwx4_1 : ∀ i : grid4.Coords, EltTy.bits .f32 = 32 ∨ (Rect.block (s := S65536x64) S4096x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x1.size a ≤ S65536x1.size a
  hwx4_2 : ∀ i : grid4.Coords, EltTy.bits .f32 = 32 ∨ (Rect.block (s := S65536x1) S4096x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x64.size a ≤ S65536x64.size a
  hwx4_7 : ∀ i : grid4.Coords, EltTy.bits .f32 = 32 ∨ (Rect.block (s := S65536x64) S4096x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024x64.size a ≤ S5x65536x64.size a
  hwx5_0 : ∀ i : grid5.Coords, EltTy.bits .f32 = 32 ∨ (Rect.block (s := S5x65536x64) S1x1024x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024.size a ≤ S65536.size a
  hwx5_1 : ∀ i : grid5.Coords, EltTy.bits .i32 = 32 ∨ (Rect.block (s := S65536) S1024.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x64x10.size a ≤ S5x64x10.size a
  hwx5_2 : ∀ i : grid5.Coords, EltTy.bits .f32 = 32 ∨ (Rect.block (s := S5x64x10) S1x64x10.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x10.size a ≤ S5x1x10.size a
  hwx5_3 : ∀ i : grid5.Coords, EltTy.bits .f32 = 32 ∨ (Rect.block (s := S5x1x10) S1x1x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x10.size a ≤ S512x10.size a
  hwx5_4 : ∀ i : grid5.Coords, EltTy.bits .f32 = 32 ∨ (Rect.block (s := S512x10) S512x10.size (cc5_transform_4 i) (hinb5_4 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S4096x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v22) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S4096x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v43) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S4096x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S4096x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v64) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S4096x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v82) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v85) S4096x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v91) S1x1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S1x64x10.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x1x10.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v93) S512x10.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) && !(k5_cond3 i == 1#1) | ⟨_ + 5, h⟩ => absurd h (Nat.not_lt.2 (Nat.le_add_left _ _))

class Facts : Prop extends Facts₀ where

variable [Facts]
-- ==== ReferenceIdeal.lean ====
abbrev S65536x128 : Shape := ⟨2, ![65536, 128]⟩
abbrev S65536x1 : Shape := ⟨2, ![65536, 1]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64x10 : Shape := ⟨3, ![5, 64, 10]⟩
abbrev S5x10 : Shape := ⟨2, ![5, 10]⟩
abbrev S1048576 : Shape := ⟨1, ![1048576]⟩
abbrev S65536 : Shape := ⟨1, ![65536]⟩
abbrev S65536x64 : Shape := ⟨2, ![65536, 64]⟩
abbrev S1x64 : Shape := ⟨2, ![1, 64]⟩
abbrev S_ : Shape := ⟨0, ![]⟩
abbrev S1048576x1 : Shape := ⟨2, ![1048576, 1]⟩
abbrev S1048576x64 : Shape := ⟨2, ![1048576, 64]⟩
abbrev S1x64x64 : Shape := ⟨3, ![1, 64, 64]⟩
abbrev S64x64 : Shape := ⟨2, ![64, 64]⟩
abbrev S512x10 : Shape := ⟨2, ![512, 10]⟩
abbrev S512x64 : Shape := ⟨2, ![512, 64]⟩
abbrev S1x64x10 : Shape := ⟨3, ![1, 64, 10]⟩
abbrev S64x10 : Shape := ⟨2, ![64, 10]⟩
abbrev S1x10 : Shape := ⟨2, ![1, 10]⟩
abbrev S10 : Shape := ⟨1, ![10]⟩

abbrev nBuf : Space → Nat
  | .hbm => 240
  | .vmem => 0
  | .smem => 0
  | _ => 0

abbrev hbmTy0_0 (i : Nat) : BufTy := match i % 128 with
  | 0 => ⟨S65536x128, .f32⟩
  | 1 => ⟨S65536x1, .f32⟩
  | 2 => ⟨S128x64, .f32⟩
  | 3 => ⟨S64, .f32⟩
  | 4 => ⟨S4x64x64, .f32⟩
  | 5 => ⟨S4x64, .f32⟩
  | 6 => ⟨S4x64x64, .f32⟩
  | 7 => ⟨S4x64, .f32⟩
  | 8 => ⟨S5x64x10, .f32⟩
  | 9 => ⟨S5x10, .f32⟩
  | 10 => ⟨S1048576, .i32⟩
  | 11 => ⟨S1048576, .i32⟩
  | 12 => ⟨S65536, .i32⟩
  | 13 => ⟨S65536x64, .f32⟩
  | 14 => ⟨S1x64, .f32⟩
  | 15 => ⟨S65536x64, .f32⟩
  | 16 => ⟨S65536x64, .f32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x64, .f32⟩
  | 26 => ⟨S_, .f32⟩
  | 27 => ⟨S65536x64, .f32⟩
  | 28 => ⟨S1048576x1, .i32⟩
  | 29 => ⟨S65536x64, .f32⟩
  | 30 => ⟨S65536x64, .f32⟩
  | 31 => ⟨S1x64x64, .f32⟩
  | 32 => ⟨S64x64, .f32⟩
  | 33 => ⟨S65536x64, .f32⟩
  | 34 => ⟨S1x64, .f32⟩
  | 35 => ⟨S64, .f32⟩
  | 36 => ⟨S1x64, .f32⟩
  | 37 => ⟨S65536x64, .f32⟩
  | 38 => ⟨S65536x64, .f32⟩
  | 39 => ⟨S_, .f32⟩
  | 40 => ⟨S65536x64, .f32⟩
  | 41 => ⟨S65536x64, .f32⟩
  | 42 => ⟨S1x64x64, .f32⟩
  | 43 => ⟨S64x64, .f32⟩
  | 44 => ⟨S65536x64, .f32⟩
  | 45 => ⟨S1x64, .f32⟩
  | 46 => ⟨S64, .f32⟩
  | 47 => ⟨S1x64, .f32⟩
  | 48 => ⟨S65536x64, .f32⟩
  | 49 => ⟨S65536x64, .f32⟩
  | 50 => ⟨S65536x64, .f32⟩
  | 51 => ⟨S65536x64, .f32⟩
  | 52 => ⟨S_, .f32⟩
  | 53 => ⟨S65536x64, .f32⟩
  | 54 => ⟨S65536x64, .f32⟩
  | 55 => ⟨S65536x64, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x64, .f32⟩
  | 65 => ⟨S_, .f32⟩
  | 66 => ⟨S65536x64, .f32⟩
  | 67 => ⟨S1048576x1, .i32⟩
  | 68 => ⟨S65536x64, .f32⟩
  | 69 => ⟨S65536x64, .f32⟩
  | 70 => ⟨S1x64x64, .f32⟩
  | 71 => ⟨S64x64, .f32⟩
  | 72 => ⟨S65536x64, .f32⟩
  | 73 => ⟨S1x64, .f32⟩
  | 74 => ⟨S64, .f32⟩
  | 75 => ⟨S1x64, .f32⟩
  | 76 => ⟨S65536x64, .f32⟩
  | 77 => ⟨S65536x64, .f32⟩
  | 78 => ⟨S_, .f32⟩
  | 79 => ⟨S65536x64, .f32⟩
  | 80 => ⟨S65536x64, .f32⟩
  | 81 => ⟨S1x64x64, .f32⟩
  | 82 => ⟨S64x64, .f32⟩
  | 83 => ⟨S65536x64, .f32⟩
  | 84 => ⟨S1x64, .f32⟩
  | 85 => ⟨S64, .f32⟩
  | 86 => ⟨S1x64, .f32⟩
  | 87 => ⟨S65536x64, .f32⟩
  | 88 => ⟨S65536x64, .f32⟩
  | 89 => ⟨S65536x64, .f32⟩
  | 90 => ⟨S65536x64, .f32⟩
  | 91 => ⟨S_, .f32⟩
  | 92 => ⟨S65536x64, .f32⟩
  | 93 => ⟨S65536x64, .f32⟩
  | 94 => ⟨S65536x64, .f32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x64, .f32⟩
  | 104 => ⟨S_, .f32⟩
  | 105 => ⟨S65536x64, .f32⟩
  | 106 => ⟨S1048576x1, .i32⟩
  | 107 => ⟨S65536x64, .f32⟩
  | 108 => ⟨S65536x64, .f32⟩
  | 109 => ⟨S1x64x64, .f32⟩
  | 110 => ⟨S64x64, .f32⟩
  | 111 => ⟨S65536x64, .f32⟩
  | 112 => ⟨S1x64, .f32⟩
  | 113 => ⟨S64, .f32⟩
  | 114 => ⟨S1x64, .f32⟩
  | 115 => ⟨S65536x64, .f32⟩
  | 116 => ⟨S65536x64, .f32⟩
  | 117 => ⟨S_, .f32⟩
  | 118 => ⟨S65536x64, .f32⟩
  | 119 => ⟨S65536x64, .f32⟩
  | 120 => ⟨S1x64x64, .f32⟩
  | 121 => ⟨S64x64, .f32⟩
  | 122 => ⟨S65536x64, .f32⟩
  | 123 => ⟨S1x64, .f32⟩
  | 124 => ⟨S64, .f32⟩
  | 125 => ⟨S1x64, .f32⟩
  | 126 => ⟨S65536x64, .f32⟩
  | 127 => ⟨S65536x64, .f32⟩
  | _ => ⟨S65536x128, .f32⟩

abbrev hbmTy0_1 (i : Nat) : BufTy := match i % 128 with
  | 0 => ⟨S65536x64, .f32⟩
  | 1 => ⟨S65536x64, .f32⟩
  | 2 => ⟨S_, .f32⟩
  | 3 => ⟨S65536x64, .f32⟩
  | 4 => ⟨S65536x64, .f32⟩
  | 5 => ⟨S65536x64, .f32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x64, .f32⟩
  | 15 => ⟨S_, .f32⟩
  | 16 => ⟨S65536x64, .f32⟩
  | 17 => ⟨S1048576x1, .i32⟩
  | 18 => ⟨S65536x64, .f32⟩
  | 19 => ⟨S65536x64, .f32⟩
  | 20 => ⟨S1x64x64, .f32⟩
  | 21 => ⟨S64x64, .f32⟩
  | 22 => ⟨S65536x64, .f32⟩
  | 23 => ⟨S1x64, .f32⟩
  | 24 => ⟨S64, .f32⟩
  | 25 => ⟨S1x64, .f32⟩
  | 26 => ⟨S65536x64, .f32⟩
  | 27 => ⟨S65536x64, .f32⟩
  | 28 => ⟨S_, .f32⟩
  | 29 => ⟨S65536x64, .f32⟩
  | 30 => ⟨S65536x64, .f32⟩
  | 31 => ⟨S1x64x64, .f32⟩
  | 32 => ⟨S64x64, .f32⟩
  | 33 => ⟨S65536x64, .f32⟩
  | 34 => ⟨S1x64, .f32⟩
  | 35 => ⟨S64, .f32⟩
  | 36 => ⟨S1x64, .f32⟩
  | 37 => ⟨S65536x64, .f32⟩
  | 38 => ⟨S65536x64, .f32⟩
  | 39 => ⟨S65536x64, .f32⟩
  | 40 => ⟨S65536x64, .f32⟩
  | 41 => ⟨S_, .f32⟩
  | 42 => ⟨S65536x64, .f32⟩
  | 43 => ⟨S65536x64, .f32⟩
  | 44 => ⟨S65536x64, .f32⟩
  | 45 => ⟨S_, .f32⟩
  | 46 => ⟨S512x10, .f32⟩
  | 47 => ⟨S_, .f32⟩
  | 48 => ⟨S512x64, .f32⟩
  | 49 => ⟨S65536x1, .i32⟩
  | 50 => ⟨S512x64, .f32⟩
  | 51 => ⟨S1x64x10, .f32⟩
  | 52 => ⟨S64x10, .f32⟩
  | 53 => ⟨S512x10, .f32⟩
  | 54 => ⟨S512x10, .f32⟩
  | 55 => ⟨S1x10, .f32⟩
  | 56 => ⟨S10, .f32⟩
  | 57 => ⟨S1x10, .f32⟩
  | 58 => ⟨S512x10, .f32⟩
  | 59 => ⟨S512x10, .f32⟩
  | 60 => ⟨S_, .f32⟩
  | 61 => ⟨S512x64, .f32⟩
  | 62 => ⟨S65536x1, .i32⟩
  | 63 => ⟨S512x64, .f32⟩
  | 64 => ⟨S1x64x10, .f32⟩
  | 65 => ⟨S64x10, .f32⟩
  | 66 => ⟨S512x10, .f32⟩
  | 67 => ⟨S512x10, .f32⟩
  | 68 => ⟨S1x10, .f32⟩
  | 69 => ⟨S10, .f32⟩
  | 70 => ⟨S1x10, .f32⟩
  | 71 => ⟨S512x10, .f32⟩
  | 72 => ⟨S512x10, .f32⟩
  | 73 => ⟨S_, .f32⟩
  | 74 => ⟨S512x64, .f32⟩
  | 75 => ⟨S65536x1, .i32⟩
  | 76 => ⟨S512x64, .f32⟩
  | 77 => ⟨S1x64x10, .f32⟩
  | 78 => ⟨S64x10, .f32⟩
  | 79 => ⟨S512x10, .f32⟩
  | 80 => ⟨S512x10, .f32⟩
  | 81 => ⟨S1x10, .f32⟩
  | 82 => ⟨S10, .f32⟩
  | 83 => ⟨S1x10, .f32⟩
  | 84 => ⟨S512x10, .f32⟩
  | 85 => ⟨S512x10, .f32⟩
  | 86 => ⟨S_, .f32⟩
  | 87 => ⟨S512x64, .f32⟩
  | 88 => ⟨S65536x1, .i32⟩
  | 89 => ⟨S512x64, .f32⟩
  | 90 => ⟨S1x64x10, .f32⟩
  | 91 => ⟨S64x10, .f32⟩
  | 92 => ⟨S512x10, .f32⟩
  | 93 => ⟨S512x10, .f32⟩
  | 94 => ⟨S1x10, .f32⟩
  | 95 => ⟨S10, .f32⟩
  | 96 => ⟨S1x10, .f32⟩
  | 97 => ⟨S512x10, .f32⟩
  | 98 => ⟨S512x10, .f32⟩
  | 99 => ⟨S_, .f32⟩
  | 100 => ⟨S512x64, .f32⟩
  | 101 => ⟨S65536x1, .i32⟩
  | 102 => ⟨S512x64, .f32⟩
  | 103 => ⟨S1x64x10, .f32⟩
  | 104 => ⟨S64x10, .f32⟩
  | 105 => ⟨S512x10, .f32⟩
  | 106 => ⟨S512x10, .f32⟩
  | 107 => ⟨S1x10, .f32⟩
  | 108 => ⟨S10, .f32⟩
  | 109 => ⟨S1x10, .f32⟩
  | 110 => ⟨S512x10, .f32⟩
  | 111 => ⟨S512x10, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_c_1 : Ref sig .tc := ⟨.hbm, 56, rfl⟩
abbrev main_v36 : Ref sig .tc := ⟨.hbm, 57, rfl⟩
abbrev main_v37 : Ref sig .tc := ⟨.hbm, 58, rfl⟩
abbrev main_c_2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call3_cst : Ref sig .tc := ⟨.hbm, 91, rfl⟩
abbrev main_call3_v0 : Ref sig .tc := ⟨.hbm, 92, rfl⟩
abbrev main_v66 : Ref sig .tc := ⟨.hbm, 93, rfl⟩
abbrev main_v67 : Ref sig .tc := ⟨.hbm, 94, rfl⟩
abbrev main_c_4 : Ref sig .tc := ⟨.hbm, 95, rfl⟩
abbrev main_v68 : Ref sig .tc := ⟨.hbm, 96, rfl⟩
abbrev main_v69 : Ref sig .tc := ⟨.hbm, 97, rfl⟩
abbrev main_c_5 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_6 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call4_cst : Ref sig .tc := ⟨.hbm, 117, rfl⟩
abbrev main_call4_v0 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call5_cst : Ref sig .tc := ⟨.hbm, 130, rfl⟩
abbrev main_call5_v0 : Ref sig .tc := ⟨.hbm, 131, rfl⟩
abbrev main_v98 : Ref sig .tc := ⟨.hbm, 132, rfl⟩
abbrev main_v99 : Ref sig .tc := ⟨.hbm, 133, rfl⟩
abbrev main_c_7 : Ref sig .tc := ⟨.hbm, 134, rfl⟩
abbrev main_v100 : Ref sig .tc := ⟨.hbm, 135, rfl⟩
abbrev main_v101 : Ref sig .tc := ⟨.hbm, 136, rfl⟩
abbrev main_c_8 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_9 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_call6_cst : Ref sig .tc := ⟨.hbm, 156, rfl⟩
abbrev main_call6_v0 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call7_cst : Ref sig .tc := ⟨.hbm, 169, rfl⟩
abbrev main_call7_v0 : Ref sig .tc := ⟨.hbm, 170, rfl⟩
abbrev main_v130 : Ref sig .tc := ⟨.hbm, 171, rfl⟩
abbrev main_v131 : Ref sig .tc := ⟨.hbm, 172, rfl⟩
abbrev main_cst_10 : Ref sig .tc := ⟨.hbm, 173, rfl⟩
abbrev main_v132 : Ref sig .tc := ⟨.hbm, 174, rfl⟩
abbrev main_cst_11 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_12 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_13 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_14 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_15 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S65536x1_S65536x64_0_1 : S65536x1.BroadcastsInDim S65536x64 (![0, 1] : Fin 2 → Fin S65536x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S512x10 : S_.BroadcastsInDim S512x10 (![] : Fin 0 → Fin S512x10.rank)
  bcast_S_S512x64 : S_.BroadcastsInDim S512x64 (![] : Fin 0 → Fin S512x64.rank)
  bcast_S65536_S65536x1_0 : S65536.BroadcastsInDim S65536x1 (![0] : Fin 1 → Fin S65536x1.rank)
  slices_S5x64x10_S1x64x10_0_0_0 : S5x64x10.Slices ![0, 0, 0] S1x64x10
  shapeCasts_S1x64x10_S64x10 : S1x64x10.ShapeCasts S64x10
  slices_S5x10_S1x10_0_0 : S5x10.Slices ![0, 0] S1x10
  shapeCasts_S1x10_S10 : S1x10.ShapeCasts S10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S5x64x10_S1x64x10_1_0_0 : S5x64x10.Slices ![1, 0, 0] S1x64x10
  slices_S5x10_S1x10_1_0 : S5x10.Slices ![1, 0] S1x10
  slices_S5x64x10_S1x64x10_2_0_0 : S5x64x10.Slices ![2, 0, 0] S1x64x10
  slices_S5x10_S1x10_2_0 : S5x10.Slices ![2, 0] S1x10
  slices_S5x64x10_S1x64x10_3_0_0 : S5x64x10.Slices ![3, 0, 0] S1x64x10
  slices_S5x10_S1x10_3_0 : S5x10.Slices ![3, 0] S1x10
  slices_S5x64x10_S1x64x10_4_0_0 : S5x64x10.Slices ![4, 0, 0] S1x64x10
  slices_S5x10_S1x10_4_0 : S5x10.Slices ![4, 0] S1x10
  dot_S65536x128_S128x64_S65536x64_1_0_0_1_n_n_wf : DotDims.WF S65536x128 S128x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x64_S65536x64_1_0_0_1_n_n_wf : DotDims.WF S65536x64 S64x64 S65536x64 [1] [0] [0] [1] [] []
  scatter_S512x64_S65536x1_S65536x64_1_0_0_1_wf : ScatterDims.WF S512x64 S65536x1 S65536x64 [1] [0] [0] 1
  dot_S512x64_S64x10_S512x10_1_0_0_1_n_n_wf : DotDims.WF S512x64 S64x10 S512x10 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def scatter_S512x64_S65536x1_S65536x64_1_0_0_1 : ScatterDims S512x64 S65536x1 S65536x64 where
  updateWindowDims := [1]
  insertedWindowDims := [0]
  scatterDimsToOperandDims := [0]
  indexVectorDim := 1
  wf := scatter_S512x64_S65536x1_S65536x64_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.K.Region0.lean ====
/- Region 0 (h = x · w + b over 16 row blocks): the body's triple and the body obligation at every grid point. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeX : Rect S4096x128 := Rect.unit (s := S4096x128) ![0, 0] S4096x128.size inb_S4096x128_S4096x128_0_0
abbrev wholeW : Rect S128x64 := Rect.unit (s := S128x64) ![0, 0] S128x64.size inb_S128x64_S128x64_0_0
abbrev wholeB : Rect S1x64 := Rect.unit (s := S1x64) ![0, 0] S1x64.size inb_S1x64_S1x64_0_0
abbrev wholeH : Rect S4096x64 := Rect.unit (s := S4096x64) ![0, 0] S4096x64.size inb_S4096x64_S4096x64_0_0

def out0 (x0 : Vec F S4096x128 .f32) (x1 : Vec F S128x64 .f32) (x2 : Vec F S1x64 .f32) : Vec F S4096x64 .f32 :=
  View.canon [⟨wholeH, k0_pay1 (View.ld x0 wholeX) (View.ld x1 wholeW) (View.ld x2 wholeB)⟩]

theorem cover0 (p0 : Vec F S4096x64 .f32) (y : S4096x64.Idx) :
    ∃ pc ∈ ([⟨wholeH, p0⟩] : List (View.Piece (Elt F) S4096x64 .f32)), y ∈ pc.1.set :=
  View.cover_of_tiled [⟨wholeH, p0⟩] S4096x64.size (by rfl) y

set_option maxHeartbeats 1000000 in
theorem sound_kernel0 (c : Dev nD) (E : Set ℕ) (i : grid0.Coords)
    (arg1 : Memref sig .tc .vmem S4096x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S4096x64 .f32) (harg4 : arg4.IsWhole)
    (x0 : Vec F S4096x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__fc1_kernel i arg1 harg1 arg2 harg2 arg3 harg3 arg4 harg4) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Layer.lean ====
/- The layer kernel, run by four regions: its result block as a function of its seven input blocks, and the body's triple. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev lw0 : Rect S4096x64 := Rect.unit (s := S4096x64) ![0, 0] S4096x64.size inb_S4096x64_S4096x64_0_0
abbrev lw1 : Rect S4096x64 := Rect.unit (s := S4096x64) ![0, 0] S4096x64.size inb_S4096x64_S4096x64_0_0
abbrev lw2 : Rect S4096x1 := Rect.unit (s := S4096x1) ![0, 0] S4096x1.size inb_S4096x1_S4096x1_0_0
abbrev lw3 : Rect S64x64 := Rect.unit (s := S64x64) ![0, 0] S64x64.size inb_S64x64_S64x64_0_0
abbrev lw4 : Rect S1x64 := Rect.unit (s := S1x64) ![0, 0] S1x64.size inb_S1x64_S1x64_0_0
abbrev lw5 : Rect S64x64 := Rect.unit (s := S64x64) ![0, 0] S64x64.size inb_S64x64_S64x64_0_0
abbrev lw6 : Rect S1x64 := Rect.unit (s := S1x64) ![0, 0] S1x64.size inb_S1x64_S1x64_0_0
abbrev lw7 : Rect S4096x64 := Rect.unit (s := S4096x64) ![0, 0] S4096x64.size inb_S4096x64_S4096x64_0_0

def layerOut (xA : Vec F S4096x64 .f32) (xB : Vec F S4096x64 .f32) (xC : Vec F S4096x1 .f32) (xD : Vec F S64x64 .f32) (xE : Vec F S1x64 .f32) (xF : Vec F S64x64 .f32) (xG : Vec F S1x64 .f32) : Vec F S4096x64 .f32 :=
  View.canon [⟨lw7, k1_pay1 (View.ld xA lw0) (View.ld xB lw1) (View.ld xD lw3) (View.ld xE lw4) (View.ld xF lw5) (View.ld xG lw6) (View.ld xC lw2)⟩]

theorem layerCover (p : Vec F S4096x64 .f32) (y : S4096x64.Idx) :
    ∃ pc ∈ ([⟨lw7, p⟩] : List (View.Piece (Elt F) S4096x64 .f32)), y ∈ pc.1.set :=
  View.cover_of_tiled [⟨lw7, p⟩] S4096x64.size (by rfl) y

set_option maxHeartbeats 4000000 in
theorem sound_layer (c : Dev nD) (E : Set ℕ) (i : grid1.Coords) (mA : Memref sig .tc .vmem S4096x64 .f32) (hmA : mA.IsWhole) (mB : Memref sig .tc .vmem S4096x64 .f32) (hmB : mB.IsWhole) (mC : Memref sig .tc .vmem S4096x1 .f32) (hmC : mC.IsWhole) (mD : Memref sig .tc .vmem S64x64 .f32) (hmD : mD.IsWhole) (mE : Memref sig .tc .vmem S1x64 .f32) (hmE : mE.IsWhole) (mF : Memref sig .tc .vmem S64x64 .f32) (hmF : mF.IsWhole) (mG : Memref sig .tc .vmem S1x64 .f32) (hmG : mG.IsWhole) (mH : Memref sig .tc .vmem S4096x64 .f32) (hmH : mH.IsWhole)
    (xA : Vec F S4096x64 .f32) (xB : Vec F S4096x64 .f32) (xC : Vec F S4096x1 .f32) (xD : Vec F S64x64 .f32) (xE : Vec F S1x64 .f32) (xF : Vec F S64x64 .f32) (xG : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ owns (c : Thread nD τ) mE fullShare xE ∗ owns (c : Thread nD τ) mF fullShare xF ∗ owns (c : Thread nD τ) mG fullShare xG ∗ (∃ d, owns (c : Thread nD τ) mH fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare xE ∗ owns (c : Thread nD τ) mF fullShare xF ∗ owns (c : Thread nD τ) mG fullShare xG ∗ owns (c : Thread nD τ) mH fullShare (layerOut xA xB xC xD xE xF xG)) -∗ K ⟨⟩))
      ⊢ wp frame (wpE (defs₀ (F := F)) Variants.none c none) E (cc1__mlp_kernel i mA hmA mB hmB mC hmC mD hmD mE hmE mF hmF mG hmG mH hmH) K := by
  simp only [cc1__mlp_kernel_eq_skeleton]; unfold cc1__mlp_kernel_skel
  unfold owns
  iintro ⟨⟨%fA, %hfA, HA⟩, ⟨%fB, %hfB, HB⟩, ⟨%fC, %hfC, HC⟩, ⟨%fD, %hfD, HD⟩, ⟨%fE, %hfE, HE⟩, ⟨%fF, %hfF, HF⟩, ⟨%fG, %hfG, HG⟩, ⟨%dH, %fH, -, HH⟩, Hk⟩
  subst hfA; subst hfB; subst hfC; subst hfD; subst hfE; subst hfF; subst hfG
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  isplitl [HE]
  · iexists fE; isplitr; · ipureintro; rfl
    iexact HE
  isplitl [HF]
  · iexists fF; isplitr; · ipureintro; rfl
    iexact HF
  isplitl [HG]
  · iexists fG; isplitr; · ipureintro; rfl
    iexact HG
  iexists _; isplitr
  swap; · iexact HH
  ipureintro
  exact View.read_writes_eq_canon _ _ _ (layerCover _)

end Cert.Kernel.Hand

end
-- ==== Proof.K.Region1.lean ====
/- A layer region: the body's triple and the body obligation at every grid point. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import proofs.«401991_j17171279249890_1_alg».proof.Proof.K.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => layerOut (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = layerOut (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  show _ ⊢ wp frame _ Set.univ (cc1__mlp_kernel (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation1 (c : Dev nD) : BodyObligation (dat1 (F := F) V c) (defs₀ (F := F)) Variants.none () Set.univ := fun t => by
  rw [bigSep_W1, bigSep_W1]
  exact sound_body1 V c t

end Region

end Cert.Kernel.Hand
-- ==== Proof.K.Region2.lean ====
/- A layer region: the body's triple and the body obligation at every grid point. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import proofs.«401991_j17171279249890_1_alg».proof.Proof.K.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => layerOut (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = layerOut (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  show _ ⊢ wp frame _ Set.univ (cc1__mlp_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation2 (c : Dev nD) : BodyObligation (dat2 (F := F) V c) (defs₀ (F := F)) Variants.none () Set.univ := fun t => by
  rw [bigSep_W2, bigSep_W2]
  exact sound_body2 V c t

end Region

end Cert.Kernel.Hand
-- ==== Proof.K.Region3.lean ====
/- A layer region: the body's triple and the body obligation at every grid point. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import proofs.«401991_j17171279249890_1_alg».proof.Proof.K.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => layerOut (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = layerOut (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  show _ ⊢ wp frame _ Set.univ (cc1__mlp_kernel (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation3 (c : Dev nD) : BodyObligation (dat3 (F := F) V c) (defs₀ (F := F)) Variants.none () Set.univ := fun t => by
  rw [bigSep_W3, bigSep_W3]
  exact sound_body3 V c t

end Region

end Cert.Kernel.Hand
-- ==== Proof.K.Region4.lean ====
/- A layer region: the body's triple and the body obligation at every grid point. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import proofs.«401991_j17171279249890_1_alg».proof.Proof.K.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => layerOut (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = layerOut (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 V c).before 6 t d = iblk4 V c 6 t :=
  ((dat4 V c).before_in_eq_fetched 6 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  show _ ⊢ wp frame _ Set.univ (cc1__mlp_kernel (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation4 (c : Dev nD) : BodyObligation (dat4 (F := F) V c) (defs₀ (F := F)) Variants.none () Set.univ := fun t => by
  rw [bigSep_W4, bigSep_W4]
  exact sound_body4 V c t

end Region

end Cert.Kernel.Hand
-- ==== Proof.K.Region5Runs.lean ====
/- Region 5 (pooling over 5 layers × 64 row tiles): the body's triple in each control case. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Region5

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 64 = 0 :=
  (by decide +kernel : ∀ t : Fin grid5.N, cond5_0 (grid5.coords t) ↔ t.val % 64 = 0)

abbrev cond5_1 (i : grid5.Coords) : Prop := k5_cond2 i = 1#1

theorem hcond5_1 : ∀ t : Fin cfg5.N, cond5_1 (grid5.coords t) ↔ t.val = 0 :=
  (by decide +kernel : ∀ t : Fin grid5.N, cond5_1 (grid5.coords t) ↔ t.val = 0)

abbrev cond5_2 (i : grid5.Coords) : Prop := k5_cond3 i = 1#1

theorem hcond5_2 : ∀ t : Fin cfg5.N, cond5_2 (grid5.coords t) ↔ t.val % 64 = 63 :=
  (by decide +kernel : ∀ t : Fin grid5.N, cond5_2 (grid5.coords t) ↔ t.val % 64 = 63)

theorem idle5_4 : ∀ t : Fin cfg5.N, cfg5.idle 4 (grid5.coords t) = true ↔ (t.val ≠ 0 ∧ t.val % 64 ≠ 63) :=
  (by decide +kernel : ∀ t : Fin grid5.N, cfg5.idle 4 (grid5.coords t) = true ↔ (t.val ≠ 0 ∧ t.val % 64 ≠ 63))

theorem live5_4 (t : Fin cfg5.N) (h : t.val = 0 ∨ t.val % 64 = 63) : cfg5.idle 4 (grid5.coords t) = false := by
  rw [Bool.eq_false_iff]; intro hi; have := (idle5_4 t).mp hi; omega

theorem noFlush5_4 (t : Fin cfg5.N) (h : t.val ≠ 319) : (cfg5.win 4).flush t = false := by
  rw [Bool.eq_false_iff]; intro hf
  have := (flush5_4 t).mp hf
  have hN : t.val < 320 := lt_of_lt_of_eq t.isLt (show cfg5.N = 320 from N_5)
  omega

abbrev ms5_0 (t : Fin cfg5.N) : Memref sig .tc .vmem S1x1024x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64x10 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x10 .f32 := win5_4.stage (cfg5.slots t 4)
abbrev hs5_4 (t : Fin cfg5.N) : (ms5_4 t).IsWhole := hstage5_4 ((cfg5.slots t 4).cast nbuf5_4)

abbrev scM5 : Memref sig .tc .vmem S512x64 .f32 := Memref.whole cc5_scratch0

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.Kernel.Hand

end
-- ==== Proof.K.Region5Cases.lean ====
/- Region 5: the three branch conditions meet in four control cases over the grid. -/
import proofs.«401991_j17171279249890_1_alg».proof.Proof.K.Region5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem readCov_whole {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
theorem kernelRun5_B (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : ¬cond5_0 i) (hc1 : ¬cond5_1 i) (hc2 : ¬cond5_2 i)
    (x0 : Vec F S1x1024x64 .f32) (x1 : Vec F S1024 .i32) (x2 : Vec F S1x64x10 .f32) (x3 : Vec F S1x1x10 .f32)
    (xo : Vec F S512x10 .f32) (xs : Vec F S512x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k5_pay3 x0 x1 xs)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  iexists _; isplitr
  swap; · iexact HS
  ipureintro
  rw [read_writes_whole _ _ zeros2]
  simp only [View.readAt_eq_ld, hf0, hf1, hfs, View.ld_unit_zero (S := S1x1024x64) zeros3, View.ld_unit_zero (S := S1024) zeros1,
    View.ld_unit_zero (S := S512x64) zeros2]

set_option maxHeartbeats 1000000 in
theorem kernelRun5_C (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : ¬cond5_0 i) (hc1 : ¬cond5_1 i) (hc2 : cond5_2 i)
    (x0 : Vec F S1x1024x64 .f32) (x1 : Vec F S1024 .i32) (x2 : Vec F S1x64x10 .f32) (x3 : Vec F S1x1x10 .f32)
    (xo : Vec F S512x10 .f32) (xs : Vec F S512x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k5_pay4 (k5_pay3 x0 x1 xs) x2 x3 xo)
            ∗ owns (c : Thread nD τ) arg7 fullShare (k5_pay3 x0 x1 xs)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr
    swap; · iexact HO
    ipureintro
    sl_unfold_words
    rw [read_writes_whole _ _ zeros2, readCov_whole _ zeros2]
    simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3, hfo, hfs]
  iexists _; isplitr
  swap; · iexact HS
  ipureintro
  sl_unfold_words
  rw [read_writes_whole _ _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3, hfs]

set_option maxHeartbeats 1000000 in
theorem kernelRun5_D (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : cond5_0 i) (hc1 : ¬cond5_1 i) (hc2 : ¬cond5_2 i)
    (x0 : Vec F S1x1024x64 .f32) (x1 : Vec F S1024 .i32) (x2 : Vec F S1x64x10 .f32) (x3 : Vec F S1x1x10 .f32)
    (xo : Vec F S512x10 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k5_pay3 x0 x1 k5_pay1)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  iexists _; isplitr
  swap; · iexact HS
  ipureintro
  sl_unfold_words
  rw [read_writes_whole _ _ zeros2, readCov_whole _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3]

set_option maxHeartbeats 1000000 in
theorem kernelRun5_A (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : cond5_0 i) (hc1 : cond5_1 i) (hc2 : ¬cond5_2 i)
    (x0 : Vec F S1x1024x64 .f32) (x1 : Vec F S1024 .i32) (x2 : Vec F S1x64x10 .f32) (x3 : Vec F S1x1x10 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare k5_pay2
            ∗ owns (c : Thread nD τ) arg7 fullShare (k5_pay3 x0 x1 k5_pay1)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%d6, %fo, -, HO⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr
    swap; · iexact HO
    ipureintro
    exact read_writes_whole _ _ zeros2 _ _ _
  iexists _; isplitr
  swap; · iexact HS
  ipureintro
  sl_unfold_words
  rw [read_writes_whole _ _ zeros2, readCov_whole _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3]

end Cert.Kernel.Hand

end
-- ==== Proof.K.Region5.lean ====
/- Region 5: the accumulated sums after each of the 320 points, by recursion on the point; the body obligation. -/
import proofs.«401991_j17171279249890_1_alg».proof.Proof.K.Region5Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def outsAt5 (c : Dev nD) : (n : ℕ) → n < cfg5.N → Vec F S512x10 .f32 × Vec F S512x64 .f32
  | 0, hn => (k5_pay2, k5_pay3 (iblk5 V c 0 ⟨0, hn⟩) (iblk5 V c 1 ⟨0, hn⟩) k5_pay1)
  | n + 1, hn =>
    if (n + 1) % 64 = 0 then
      ((outsAt5 c n (Nat.lt_of_succ_lt hn)).1, k5_pay3 (iblk5 V c 0 ⟨n + 1, hn⟩) (iblk5 V c 1 ⟨n + 1, hn⟩) k5_pay1)
    else if (n + 1) % 64 = 63 then
      (k5_pay4 (k5_pay3 (iblk5 V c 0 ⟨n + 1, hn⟩) (iblk5 V c 1 ⟨n + 1, hn⟩) (outsAt5 c n (Nat.lt_of_succ_lt hn)).2)
          (iblk5 V c 2 ⟨n + 1, hn⟩) (iblk5 V c 3 ⟨n + 1, hn⟩) (outsAt5 c n (Nat.lt_of_succ_lt hn)).1,
        k5_pay3 (iblk5 V c 0 ⟨n + 1, hn⟩) (iblk5 V c 1 ⟨n + 1, hn⟩) (outsAt5 c n (Nat.lt_of_succ_lt hn)).2)
    else
      ((outsAt5 c n (Nat.lt_of_succ_lt hn)).1,
        k5_pay3 (iblk5 V c 0 ⟨n + 1, hn⟩) (iblk5 V c 1 ⟨n + 1, hn⟩) (outsAt5 c n (Nat.lt_of_succ_lt hn)).2)

theorem outsAt5_A (c : Dev nD) (t : Fin cfg5.N) (hz : t.val = 0) :
    outsAt5 V c t.val t.isLt = (k5_pay2, k5_pay3 (iblk5 V c 0 t) (iblk5 V c 1 t) k5_pay1) := by
  obtain ⟨n, hn⟩ := t
  cases n with
  | zero => rfl
  | succ n => exact absurd hz (Nat.succ_ne_zero n)

theorem outsAt5_B (c : Dev nD) (t : Fin cfg5.N) (h0 : t.val % 64 ≠ 0) (h2 : t.val % 64 ≠ 63) :
    outsAt5 V c t.val t.isLt = ((outsAt5 V c (t.val - 1) (Nat.lt_of_le_of_lt (Nat.sub_le _ _) t.isLt)).1, k5_pay3 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h2).trans rfl)

theorem outsAt5_C (c : Dev nD) (t : Fin cfg5.N) (h2 : t.val % 64 = 63) :
    outsAt5 V c t.val t.isLt = (k5_pay4 (k5_pay3 (iblk5 V c 0 t) (iblk5 V c 1 t) (outsAt5 V c (t.val - 1) (Nat.lt_of_le_of_lt (Nat.sub_le _ _) t.isLt)).2) (iblk5 V c 2 t) (iblk5 V c 3 t) (outsAt5 V c (t.val - 1) (Nat.lt_of_le_of_lt (Nat.sub_le _ _) t.isLt)).1,
      k5_pay3 (iblk5 V c 0 t) (iblk5 V c 1 t) (outsAt5 V c (t.val - 1) (Nat.lt_of_le_of_lt (Nat.sub_le _ _) t.isLt)).2) := by
  obtain ⟨n, hn⟩ := t
  cases n with
  | zero => exact absurd h2 (by dsimp only; omega)
  | succ n => exact (if_neg (by dsimp only at h2; omega)).trans ((if_pos h2).trans rfl)

theorem outsAt5_D (c : Dev nD) (t : Fin cfg5.N) (h0 : t.val % 64 = 0) (hz : t.val ≠ 0) :
    outsAt5 V c t.val t.isLt = ((outsAt5 V c (t.val - 1) (Nat.lt_of_le_of_lt (Nat.sub_le _ _) t.isLt)).1, k5_pay3 (iblk5 V c 0 t) (iblk5 V c 1 t) k5_pay1) := by
  obtain ⟨n, hn⟩ := t
  cases n with
  | zero => exact absurd rfl hz
  | succ n => exact (if_pos h0).trans rfl

theorem outsAt5_eq (c : Dev nD) (n : ℕ) (h : n < cfg5.N) :
    outsAt5 V c n h =
      ((if n % 64 = 63 then
          k5_pay4 (k5_pay3 (iblk5 V c 0 ⟨n, h⟩) (iblk5 V c 1 ⟨n, h⟩)
              (if n % 64 = 0 then k5_pay1 else (outsAt5 V c (n - 1) (Nat.lt_of_le_of_lt (Nat.sub_le _ _) h)).2))
            (iblk5 V c 2 ⟨n, h⟩) (iblk5 V c 3 ⟨n, h⟩)
            (if n = 0 then k5_pay2 else (outsAt5 V c (n - 1) (Nat.lt_of_le_of_lt (Nat.sub_le _ _) h)).1)
        else (if n = 0 then k5_pay2 else (outsAt5 V c (n - 1) (Nat.lt_of_le_of_lt (Nat.sub_le _ _) h)).1)),
        k5_pay3 (iblk5 V c 0 ⟨n, h⟩) (iblk5 V c 1 ⟨n, h⟩)
          (if n % 64 = 0 then k5_pay1 else (outsAt5 V c (n - 1) (Nat.lt_of_le_of_lt (Nat.sub_le _ _) h)).2)) := by
  by_cases hz : n = 0
  · subst hz; rw [if_neg (by decide), if_pos rfl, if_pos (Nat.zero_mod _)]; rfl
  · by_cases h0 : n % 64 = 0
    · rw [outsAt5_D V c ⟨n, h⟩ h0 hz, if_neg (by omega), if_neg hz, if_pos h0]
    · by_cases h2 : n % 64 = 63
      · rw [outsAt5_C V c ⟨n, h⟩ h2, if_pos h2, if_neg h0, if_neg hz]
      · rw [outsAt5_B V c ⟨n, h⟩ h0 h2, if_neg h2, if_neg h0, if_neg hz]

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

theorem q_eq5 (c : Dev nD) (w : Fin cfg5.W) : (dat5 V c).q w = fullShare := rfl
theorem owed_eq5 (c : Dev nD) (t : Fin (cfg5.N + 1)) : (dat5 V c).owed t = 0 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem kept5_4 (c : Dev nD) (t : Fin cfg5.N) (d) : (dat5 V c).kept 4 t d = (outsAt5 V c t.val t.isLt).1 := by
  unfold Dat.kept
  rw [Pipeline.fill_of_clip_none (cfg := cfg5) 4 _ (fun _ => rfl) d ((dat5 V c).after 4 t), Pipeline.Window.fill_cut, after5_4]

theorem before5_4 (c : Dev nD) : ∀ (n : ℕ) (hn : n + 1 < cfg5.N) (d),
    (dat5 V c).before 4 ⟨n + 1, hn⟩ d = (outsAt5 V c n (Nat.lt_of_succ_lt hn)).1 := by
  intro n
  induction n with
  | zero =>
    intro hn d
    rw [(dat5 V c).before_of_pos 4 ⟨0 + 1, hn⟩ (Nat.succ_ne_zero 0) ((cfg5.win 4).fetch_out rfl _)]
    show (if (cfg5.win 4).flush ⟨0, Nat.lt_of_succ_lt hn⟩ then d else (dat5 V c).left 4 ⟨0, Nat.lt_of_succ_lt hn⟩ d) = _
    rw [noFlush5_4 ⟨0, Nat.lt_of_succ_lt hn⟩ (by show (0 : ℕ) ≠ 319; decide), if_neg Bool.false_ne_true]
    unfold Dat.left
    rw [live5_4 ⟨0, Nat.lt_of_succ_lt hn⟩ (Or.inl rfl)]
    exact kept5_4 V c ⟨0, Nat.lt_of_succ_lt hn⟩ d
  | succ k ih =>
    intro hn d
    have hN : k + 1 + 1 < 320 := lt_of_lt_of_eq hn (show cfg5.N = 320 from N_5)
    rw [(dat5 V c).before_of_pos 4 ⟨k + 1 + 1, hn⟩ (Nat.succ_ne_zero _) ((cfg5.win 4).fetch_out rfl _)]
    show (if (cfg5.win 4).flush ⟨k + 1, Nat.lt_of_succ_lt hn⟩ then d else (dat5 V c).left 4 ⟨k + 1, Nat.lt_of_succ_lt hn⟩ d) = _
    rw [noFlush5_4 ⟨k + 1, Nat.lt_of_succ_lt hn⟩ (by dsimp only; omega), if_neg Bool.false_ne_true]
    unfold Dat.left
    by_cases hi : cfg5.idle 4 (grid5.coords ⟨k + 1, Nat.lt_of_succ_lt hn⟩) = true
    · rw [hi]
      obtain ⟨-, h63⟩ := (idle5_4 ⟨k + 1, Nat.lt_of_succ_lt hn⟩).mp hi
      show (dat5 V c).before 4 ⟨k + 1, Nat.lt_of_succ_lt hn⟩ d = _
      rw [ih (Nat.lt_of_succ_lt hn) d]
      by_cases h0 : (k + 1) % 64 = 0
      · rw [outsAt5_D V c ⟨k + 1, Nat.lt_of_succ_lt hn⟩ h0 (Nat.succ_ne_zero k)]; rfl
      · rw [outsAt5_B V c ⟨k + 1, Nat.lt_of_succ_lt hn⟩ h0 h63]; rfl
    · rw [Bool.not_eq_true] at hi
      rw [hi]
      exact kept5_4 V c ⟨k + 1, Nat.lt_of_succ_lt hn⟩ d

theorem before5_4_pos (c : Dev nD) (t : Fin cfg5.N) (hz : t.val ≠ 0) (d) :
    (dat5 V c).before 4 t d = (outsAt5 V c (t.val - 1) (Nat.lt_of_le_of_lt (Nat.sub_le _ _) t.isLt)).1 := by
  obtain ⟨n, hn⟩ := t
  cases n with
  | zero => exact absurd rfl hz
  | succ n => exact before5_4 V c n hn d

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 2000000 in
theorem sound_body5_A (c : Dev nD) (t : Fin cfg5.N) (hz : t.val = 0) :
    bodyPre5 V c t ⊢ wp frame (wpE (defs₀ (F := F)) Variants.none c none) Set.univ (bodyAt5 t) (fun _ => bodyPost5 V c t) := by
  have h0 : t.val % 64 = 0 := by rw [hz]
  have h2 : ¬ t.val % 64 = 63 := by rw [hz]; decide
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [live5_4 t (Or.inl hz)], after5_4]
  rw [outsAt5_A V c t hz]
  rw [PhiS5_castSucc V c t, PhiS5_zero V c _ _ hz, PhiA5_eq]
  iintro ⟨⟨⟨HS, HR⟩, Hg⟩, Ho, ⟨%d0, H0⟩, ⟨%d1, H1⟩, ⟨%d2, H2⟩, ⟨%d3, H3⟩, ⟨%d4, H4⟩⟩
  iapply (kernelRun5_A c (grid5.coords t) _ _ _ _ _ _ _ _ _ _ _ _ ((hcond5_0 t).mpr h0) ((hcond5_1 t).mpr hz) (fun h => h2 ((hcond5_2 t).mp h)) (iblk5 V c 0 t) (iblk5 V c 1 t) (iblk5 V c 2 t) (iblk5 V c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

set_option maxHeartbeats 2000000 in
theorem sound_body5_B (c : Dev nD) (t : Fin cfg5.N) (h0 : ¬ t.val % 64 = 0) (h2 : ¬ t.val % 64 = 63) :
    bodyPre5 V c t ⊢ wp frame (wpE (defs₀ (F := F)) Variants.none c none) Set.univ (bodyAt5 t) (fun _ => bodyPost5 V c t) := by
  have hz : t.val ≠ 0 := fun h => h0 (by rw [h])
  have hN : t.val < 320 := lt_of_lt_of_eq t.isLt (show cfg5.N = 320 from N_5)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [Dat.leavesExact_idle (dat5 V c) 4 t ((idle5_4 t).mpr ⟨hz, h2⟩) (noFlush5_4 t (by omega))]
  rw [outsAt5_B V c t h0 h2]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_B c (grid5.coords t) _ _ _ _ _ _ _ _ _ _ _ _ (fun h => h0 ((hcond5_0 t).mp h)) (fun h => hz ((hcond5_1 t).mp h)) (fun h => h2 ((hcond5_2 t).mp h)) (iblk5 V c 0 t) (iblk5 V c 1 t) (iblk5 V c 2 t) (iblk5 V c 3 t) _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
theorem sound_body5_C (c : Dev nD) (t : Fin cfg5.N) (h2 : t.val % 64 = 63) :
    bodyPre5 V c t ⊢ wp frame (wpE (defs₀ (F := F)) Variants.none c none) Set.univ (bodyAt5 t) (fun _ => bodyPost5 V c t) := by
  have h0 : ¬ t.val % 64 = 0 := by omega
  have hz : t.val ≠ 0 := fun h => h0 (by rw [h])
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [live5_4 t (Or.inr h2)], after5_4]
  rw [outsAt5_C V c t h2]
  simp only [before5_4_pos V c t hz]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_C c (grid5.coords t) _ _ _ _ _ _ _ _ _ _ _ _ (fun h => h0 ((hcond5_0 t).mp h)) (fun h => hz ((hcond5_1 t).mp h)) ((hcond5_2 t).mpr h2) (iblk5 V c 0 t) (iblk5 V c 1 t) (iblk5 V c 2 t) (iblk5 V c 3 t) _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

set_option maxHeartbeats 2000000 in
theorem sound_body5_D (c : Dev nD) (t : Fin cfg5.N) (h0 : t.val % 64 = 0) (hz : t.val ≠ 0) :
    bodyPre5 V c t ⊢ wp frame (wpE (defs₀ (F := F)) Variants.none c none) Set.univ (bodyAt5 t) (fun _ => bodyPost5 V c t) := by
  have h2 : ¬ t.val % 64 = 63 := by omega
  have hN : t.val < 320 := lt_of_lt_of_eq t.isLt (show cfg5.N = 320 from N_5)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [Dat.leavesExact_idle (dat5 V c) 4 t ((idle5_4 t).mpr ⟨hz, h2⟩) (noFlush5_4 t (by omega))]
  rw [outsAt5_D V c t h0 hz]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_D c (grid5.coords t) _ _ _ _ _ _ _ _ _ _ _ _ ((hcond5_0 t).mpr h0) (fun h => hz ((hcond5_1 t).mp h)) (fun h => h2 ((hcond5_2 t).mp h)) (iblk5 V c 0 t) (iblk5 V c 1 t) (iblk5 V c 2 t) (iblk5 V c 3 t) _ Set.univ _)
  isplitl [H0]; · iexact H0
  isplitl [H1]; · iexact H1
  isplitl [H2]; · iexact H2
  isplitl [H3]; · iexact H3
  isplitl [H4]; · iexact H4
  isplitl [HS]; · iexists _; iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexists _; iexact H4

theorem sound_body5 (c : Dev nD) (t : Fin cfg5.N) :
    bodyPre5 V c t ⊢ wp frame (wpE (defs₀ (F := F)) Variants.none c none) Set.univ (bodyAt5 t) (fun _ => bodyPost5 V c t) := by
  by_cases hz : t.val = 0
  · exact sound_body5_A V c t hz
  · by_cases h0 : t.val % 64 = 0
    · exact sound_body5_D V c t h0 hz
    · by_cases h2 : t.val % 64 = 63
      · exact sound_body5_C V c t h2
      · exact sound_body5_B V c t h0 h2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

theorem hout5 (c : Dev nD) : (dat5 V c).Φ (Fin.last cfg5.N) ⊢ (Pipeline.ΦA spec5 c : sProp 𝕄) :=
  Phi_out5 V c _ (by rw [Fin.val_last]; have : cfg5.N = 320 := N_5; omega)

end Region5

end Cert.Kernel.Hand

end
-- ==== Proof.LibClassARegion.lean ====
/- A kernel region with exact proof data as a segment of a program of several regions, between two valuations that agree off the region's arrays. -/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

def rides (c : Dev nD) : sProp 𝕄₁ :=
  iprop((∃ r, prngReg c r) ∗ ∃ W, owes (c.tc : Thread nD τ) (0 : CellTallies nD τ sig Unit) W)

def between (c : Dev nD) (W : Valuation τ sig Val) : sProp 𝕄₁ :=
  iprop(StableHlo.held (c.tc : Thread nD τ) (ucRefs τ sig) W ∗ rides (U' := U') c)

set_option backward.isDefEq.respectTransparency.types false in
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.K.Run.lean ====
/- The whole program's run: each region is a segment between two boundary valuations, no stretch and no region writes an argument,
  and the result array ends at what the last region leaves. -/
import proofs.«401991_j17171279249890_1_alg».proof.Proof.Gen.Kernel.Launch
import proofs.«401991_j17171279249890_1_alg».proof.Proof.Gen.Kernel.Skeleton
import proofs.«401991_j17171279249890_1_alg».proof.Proof.Gen.Kernel.Points
import proofs.«401991_j17171279249890_1_alg».proof.Proof.Gen.Kernel.Regions
import proofs.«401991_j17171279249890_1_alg».proof.Proof.K.Region0
import proofs.«401991_j17171279249890_1_alg».proof.Proof.K.Region1
import proofs.«401991_j17171279249890_1_alg».proof.Proof.K.Region2
import proofs.«401991_j17171279249890_1_alg».proof.Proof.K.Region3
import proofs.«401991_j17171279249890_1_alg».proof.Proof.K.Region4
import proofs.«401991_j17171279249890_1_alg».proof.Proof.K.Region5
import proofs.«401991_j17171279249890_1_alg».proof.Proof.LibClassARegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => m (c, b)

abbrev B1 : Dev nD → Valuation τ sig (Elt F) := fun c => StableHlo.after hostOps0 (B0 m c)

abbrev E1 : (c : Dev nD) → (b : Ref sig .tc) → Buf (Elt F) ((c : Thread nD τ).loc b) := fun c b => B1 m c b

def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

theorem B2_keep (c : Dev nD) (b : Ref sig .tc) (hb : b ≠ main_v1) : B2 m c (Proc.devRef .tc b) = B1 m c (Proc.devRef .tc b) := by
  by_cases h : ∃ w, Pipeline.arrRef spec0 w = b
  · obtain ⟨w, rfl⟩ := h
    have hin : (cfg0.win w).isOut = false := by
      revert hb; revert w; decide
    exact (B2_arr m c w).trans (((dat0 (E1 m) c).arrAt_in w hin _).trans (A_eq0 (E1 m) c w))
  · exact B2_of_ne m c b fun w e => h ⟨w, e⟩

abbrev B3 : Dev nD → Valuation τ sig (Elt F) := fun c => StableHlo.after hostOps1 (B2 m c)

abbrev E3 : (c : Dev nD) → (b : Ref sig .tc) → Buf (Elt F) ((c : Thread nD τ).loc b) := fun c b => B3 m c b

def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

theorem B4_keep (c : Dev nD) (b : Ref sig .tc) (hb : b ≠ main_v22) : B4 m c (Proc.devRef .tc b) = B3 m c (Proc.devRef .tc b) := by
  by_cases h : ∃ w, Pipeline.arrRef spec1 w = b
  · obtain ⟨w, rfl⟩ := h
    have hin : (cfg1.win w).isOut = false := by
      revert hb; revert w; decide
    exact (B4_arr m c w).trans (((dat1 (E3 m) c).arrAt_in w hin _).trans (A_eq1 (E3 m) c w))
  · exact B4_of_ne m c b fun w e => h ⟨w, e⟩

abbrev B5 : Dev nD → Valuation τ sig (Elt F) := fun c => StableHlo.after hostOps2 (B4 m c)

abbrev E5 : (c : Dev nD) → (b : Ref sig .tc) → Buf (Elt F) ((c : Thread nD τ).loc b) := fun c b => B5 m c b

def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

theorem B6_keep (c : Dev nD) (b : Ref sig .tc) (hb : b ≠ main_v43) : B6 m c (Proc.devRef .tc b) = B5 m c (Proc.devRef .tc b) := by
  by_cases h : ∃ w, Pipeline.arrRef spec2 w = b
  · obtain ⟨w, rfl⟩ := h
    have hin : (cfg2.win w).isOut = false := by
      revert hb; revert w; decide
    exact (B6_arr m c w).trans (((dat2 (E5 m) c).arrAt_in w hin _).trans (A_eq2 (E5 m) c w))
  · exact B6_of_ne m c b fun w e => h ⟨w, e⟩

abbrev B7 : Dev nD → Valuation τ sig (Elt F) := fun c => StableHlo.after hostOps3 (B6 m c)

abbrev E7 : (c : Dev nD) → (b : Ref sig .tc) → Buf (Elt F) ((c : Thread nD τ).loc b) := fun c b => B7 m c b

def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev E8 : (c : Dev nD) → (b : Ref sig .tc) → Buf (Elt F) ((c : Thread nD τ).loc b) := fun c b => B8 m c b
theorem hF3 (c : Dev nD) (w : Fin cfg3.W) : (dat3 (E7 m) c).arrAt w cfg3.N = E8 m c (Pipeline.arrRef spec3 w) :=
  (B8_arr m c w).symm
theorem hrest3 (c : Dev nD) : ∀ b, b ∉ Finset.univ.image (Pipeline.arrRef spec3) → E8 m c b = E7 m c b :=
  fun b hb => B8_of_ne m c b fun w e => hb (Finset.mem_image.mpr ⟨w, Finset.mem_univ _, e⟩)

theorem B8_keep (c : Dev nD) (b : Ref sig .tc) (hb : b ≠ main_v64) : B8 m c (Proc.devRef .tc b) = B7 m c (Proc.devRef .tc b) := by
  by_cases h : ∃ w, Pipeline.arrRef spec3 w = b
  · obtain ⟨w, rfl⟩ := h
    have hin : (cfg3.win w).isOut = false := by
      revert hb; revert w; decide
    exact (B8_arr m c w).trans (((dat3 (E7 m) c).arrAt_in w hin _).trans (A_eq3 (E7 m) c w))
  · exact B8_of_ne m c b fun w e => h ⟨w, e⟩

abbrev B9 : Dev nD → Valuation τ sig (Elt F) := fun c => StableHlo.after hostOps4 (B8 m c)

abbrev E9 : (c : Dev nD) → (b : Ref sig .tc) → Buf (Elt F) ((c : Thread nD τ).loc b) := fun c b => B9 m c b

def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev E10 : (c : Dev nD) → (b : Ref sig .tc) → Buf (Elt F) ((c : Thread nD τ).loc b) := fun c b => B10 m c b
theorem hF4 (c : Dev nD) (w : Fin cfg4.W) : (dat4 (E9 m) c).arrAt w cfg4.N = E10 m c (Pipeline.arrRef spec4 w) :=
  (B10_arr m c w).symm
theorem hrest4 (c : Dev nD) : ∀ b, b ∉ Finset.univ.image (Pipeline.arrRef spec4) → E10 m c b = E9 m c b :=
  fun b hb => B10_of_ne m c b fun w e => hb (Finset.mem_image.mpr ⟨w, Finset.mem_univ _, e⟩)

theorem B10_keep (c : Dev nD) (b : Ref sig .tc) (hb : b ≠ main_v85) : B10 m c (Proc.devRef .tc b) = B9 m c (Proc.devRef .tc b) := by
  by_cases h : ∃ w, Pipeline.arrRef spec4 w = b
  · obtain ⟨w, rfl⟩ := h
    have hin : (cfg4.win w).isOut = false := by
      revert hb; revert w; decide
    exact (B10_arr m c w).trans (((dat4 (E9 m) c).arrAt_in w hin _).trans (A_eq4 (E9 m) c w))
  · exact B10_of_ne m c b fun w e => h ⟨w, e⟩

abbrev B11 : Dev nD → Valuation τ sig (Elt F) := fun c => StableHlo.after hostOps5 (B10 m c)

abbrev E11 : (c : Dev nD) → (b : Ref sig .tc) → Buf (Elt F) ((c : Thread nD τ).loc b) := fun c b => B11 m c b

def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev E12 : (c : Dev nD) → (b : Ref sig .tc) → Buf (Elt F) ((c : Thread nD τ).loc b) := fun c b => B12 m c b
theorem hF5 (c : Dev nD) (w : Fin cfg5.W) : (dat5 (E11 m) c).arrAt w cfg5.N = E12 m c (Pipeline.arrRef spec5 w) :=
  (B12_arr m c w).symm
theorem hrest5 (c : Dev nD) : ∀ b, b ∉ Finset.univ.image (Pipeline.arrRef spec5) → E12 m c b = E11 m c b :=
  fun b hb => B12_of_ne m c b fun w e => hb (Finset.mem_image.mpr ⟨w, Finset.mem_univ _, e⟩)

theorem B12_keep (c : Dev nD) (b : Ref sig .tc) (hb : b ≠ main_v93) : B12 m c (Proc.devRef .tc b) = B11 m c (Proc.devRef .tc b) := by
  by_cases h : ∃ w, Pipeline.arrRef spec5 w = b
  · obtain ⟨w, rfl⟩ := h
    have hin : (cfg5.win w).isOut = false := by
      revert hb; revert w; decide
    exact (B12_arr m c w).trans (((dat5 (E11 m) c).arrAt_in w hin _).trans (A_eq5 (E11 m) c w))
  · exact B12_of_ne m c b fun w e => h ⟨w, e⟩

abbrev args : List (Ref sig .tc) :=
  [main_arg0, main_arg1, main_arg2, main_arg3, main_arg4, main_arg5, main_arg6, main_arg7, main_arg8, main_arg9, main_arg10, main_arg11, main_arg12]

-- no host stretch writes an argument, and no region's output array is one
theorem args_unwritten : ∀ b ∈ args, (b ∉ hostOps0_W ∧ b ≠ main_v1) ∧ (b ∉ hostOps1_W ∧ b ≠ main_v22) ∧ (b ∉ hostOps2_W ∧ b ≠ main_v43) ∧ (b ∉ hostOps3_W ∧ b ≠ main_v64) ∧ (b ∉ hostOps4_W ∧ b ≠ main_v85) ∧ (b ∉ hostOps5_W ∧ b ≠ main_v93) := by decide

theorem B2_arg (c : Dev nD) (b : Ref sig .tc) (hb : b ∈ args) : B2 m c (Proc.devRef .tc b) = m ((c.tc : Thread nD τ).loc b) :=
  (B2_keep m c b (args_unwritten b hb).1.2).trans <|
  (StableHlo.after_of_writes_sub hostOps0 _ hostOps0_writes (args_unwritten b hb).1.1).trans rfl
theorem B4_arg (c : Dev nD) (b : Ref sig .tc) (hb : b ∈ args) : B4 m c (Proc.devRef .tc b) = m ((c.tc : Thread nD τ).loc b) :=
  (B4_keep m c b (args_unwritten b hb).2.1.2).trans <|
  (StableHlo.after_of_writes_sub hostOps1 _ hostOps1_writes (args_unwritten b hb).2.1.1).trans (B2_arg m c b hb)
theorem B6_arg (c : Dev nD) (b : Ref sig .tc) (hb : b ∈ args) : B6 m c (Proc.devRef .tc b) = m ((c.tc : Thread nD τ).loc b) :=
  (B6_keep m c b (args_unwritten b hb).2.2.1.2).trans <|
  (StableHlo.after_of_writes_sub hostOps2 _ hostOps2_writes (args_unwritten b hb).2.2.1.1).trans (B4_arg m c b hb)
theorem B8_arg (c : Dev nD) (b : Ref sig .tc) (hb : b ∈ args) : B8 m c (Proc.devRef .tc b) = m ((c.tc : Thread nD τ).loc b) :=
  (B8_keep m c b (args_unwritten b hb).2.2.2.1.2).trans <|
  (StableHlo.after_of_writes_sub hostOps3 _ hostOps3_writes (args_unwritten b hb).2.2.2.1.1).trans (B6_arg m c b hb)
theorem B10_arg (c : Dev nD) (b : Ref sig .tc) (hb : b ∈ args) : B10 m c (Proc.devRef .tc b) = m ((c.tc : Thread nD τ).loc b) :=
  (B10_keep m c b (args_unwritten b hb).2.2.2.2.1.2).trans <|
  (StableHlo.after_of_writes_sub hostOps4 _ hostOps4_writes (args_unwritten b hb).2.2.2.2.1.1).trans (B8_arg m c b hb)
theorem B12_arg (c : Dev nD) (b : Ref sig .tc) (hb : b ∈ args) : B12 m c (Proc.devRef .tc b) = m ((c.tc : Thread nD τ).loc b) :=
  (B12_keep m c b (args_unwritten b hb).2.2.2.2.2.2).trans <|
  (StableHlo.after_of_writes_sub hostOps5 _ hostOps5_writes (args_unwritten b hb).2.2.2.2.2.1).trans (B10_arg m c b hb)

theorem B12_result (c : Dev nD) : B12 m c (Proc.devRef .tc main_v93) = (dat5 (E11 m) c).arrAt 4 cfg5.N :=
  B12_arr m c 4

abbrev padm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
abbrev 𝒱₀ : Variants := Variants.none

abbrev L₀ : GSem nD τ sig → Finset Unit := fun _ => ∅
abbrev lv₀ : GSem nD τ sig → Unit → ℕ := fun _ _ => 0

abbrev R (c : Dev nD) : sProp 𝕄 := Pipeline.ClassA.rides (U' := UR sig nD τ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) padm (pdats m) () defs₀ 𝒱₀ L₀ lv₀ 0 :=
  Pipeline.ClassA.region (U' := UR sig nD τ) (pcfgs (F := F)) padm (pdats m) defs₀ 𝒱₀ L₀ lv₀ 0 launch0.toP
    (fun c => body_obligation0 (E1 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B1 m) (B2 m) (fun _ _ => rfl) (hF0 m) (hrest0 m)

set_option backward.isDefEq.respectTransparency.types false in
def reg1 : Pipeline.RegionSeg (pcfgs (F := F)) padm (pdats m) () defs₀ 𝒱₀ L₀ lv₀ 1 :=
  Pipeline.ClassA.region (U' := UR sig nD τ) (pcfgs (F := F)) padm (pdats m) defs₀ 𝒱₀ L₀ lv₀ 1 launch1.toP
    (fun c => body_obligation1 (E3 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B3 m) (B4 m) (fun _ _ => rfl) (hF1 m) (hrest1 m)

set_option backward.isDefEq.respectTransparency.types false in
def reg2 : Pipeline.RegionSeg (pcfgs (F := F)) padm (pdats m) () defs₀ 𝒱₀ L₀ lv₀ 2 :=
  Pipeline.ClassA.region (U' := UR sig nD τ) (pcfgs (F := F)) padm (pdats m) defs₀ 𝒱₀ L₀ lv₀ 2 launch2.toP
    (fun c => body_obligation2 (E5 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B5 m) (B6 m) (fun _ _ => rfl) (hF2 m) (hrest2 m)

set_option backward.isDefEq.respectTransparency.types false in
def reg3 : Pipeline.RegionSeg (pcfgs (F := F)) padm (pdats m) () defs₀ 𝒱₀ L₀ lv₀ 3 :=
  Pipeline.ClassA.region (U' := UR sig nD τ) (pcfgs (F := F)) padm (pdats m) defs₀ 𝒱₀ L₀ lv₀ 3 launch3.toP
    (fun c => body_obligation3 (E7 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B7 m) (B8 m) (fun _ _ => rfl) (hF3 m) (hrest3 m)

set_option backward.isDefEq.respectTransparency.types false in
def reg4 : Pipeline.RegionSeg (pcfgs (F := F)) padm (pdats m) () defs₀ 𝒱₀ L₀ lv₀ 4 :=
  Pipeline.ClassA.region (U' := UR sig nD τ) (pcfgs (F := F)) padm (pdats m) defs₀ 𝒱₀ L₀ lv₀ 4 launch4.toP
    (fun c => body_obligation4 (E9 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B9 m) (B10 m) (fun _ _ => rfl) (hF4 m) (hrest4 m)

set_option backward.isDefEq.respectTransparency.types false in
def reg5 : Pipeline.RegionSeg (pcfgs (F := F)) padm (pdats m) () defs₀ 𝒱₀ L₀ lv₀ 5 :=
  Pipeline.ClassA.region (U' := UR sig nD τ) (pcfgs (F := F)) padm (pdats m) defs₀ 𝒱₀ L₀ lv₀ 5 launch5.toP
    (fun c => body_obligation5 (E11 m) c) (fun _ _ => rfl) (fun _ _ => rfl) (fun _ _ => rfl)
    (fun c => hin5 (E11 m) c) (fun c => hout5 (E11 m) c)
    (fun c => by unfold Pipeline.prefHeld; rw [show (Finset.univ : Finset (Fin 0)) = ∅ from rfl, BI.bigSep_empty])
    (B11 m) (B12 m) (fun _ _ => rfl) (hF5 m) (hrest5 m)

abbrev allSegs : List (Pipeline.Seg (pcfgs (F := F)) padm (pdats m) () defs₀ 𝒱₀ L₀ lv₀) :=
  [ .host (hseg hostOps0 hostOps0_sub hostOps0_fresh (B0 m)), .region (reg0 m),
    .host (hseg hostOps1 hostOps1_sub hostOps1_fresh (B2 m)), .region (reg1 m),
    .host (hseg hostOps2 hostOps2_sub hostOps2_fresh (B4 m)), .region (reg2 m),
    .host (hseg hostOps3 hostOps3_sub hostOps3_fresh (B6 m)), .region (reg3 m),
    .host (hseg hostOps4 hostOps4_sub hostOps4_fresh (B8 m)), .region (reg4 m),
    .host (hseg hostOps5 hostOps5_sub hostOps5_fresh (B10 m)), .region (reg5 m) ]

theorem main_run (c : Dev nD) : main (F := F) c = Pipeline.Seg.run (allSegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (B12 m c) ∗ ∃ r, prngReg c r)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m c b) :=
  Pipeline.θ_run_regions_kit (pcfgs (F := F)) padm (pdats m) () cellOf_inj emb₁ defs₀ 𝒱₀ L₀ lv₀ m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        change Pipeline.ClassA.between (U' := UR sig nD τ) c (B12 m c) ⊢ _
        unfold Pipeline.ClassA.between Pipeline.ClassA.rides
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (B0 m c)
        from Pipeline.unscopedBufs_held c (B0 m c)]
      unfold R Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c => h c)

theorem value_all : θ_run defs (onTc (τ := τ) (main (F := F))) ⟨m, fun _ => 0, ρ⟩ (fun r => ∀ c : Dev nD,
      r.2.mem ((c.tc : Thread nD τ).loc main_v93) = (dat5 (E11 m) c).arrAt 4 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v93 (by decide))).trans (B12_result m c),
      (h c _ (mem_uc main_arg0 (by decide))).trans (B12_arg m c main_arg0 (by decide)),
      (h c _ (mem_uc main_arg1 (by decide))).trans (B12_arg m c main_arg1 (by decide)),
      (h c _ (mem_uc main_arg2 (by decide))).trans (B12_arg m c main_arg2 (by decide)),
      (h c _ (mem_uc main_arg3 (by decide))).trans (B12_arg m c main_arg3 (by decide)),
      (h c _ (mem_uc main_arg4 (by decide))).trans (B12_arg m c main_arg4 (by decide)),
      (h c _ (mem_uc main_arg5 (by decide))).trans (B12_arg m c main_arg5 (by decide)),
      (h c _ (mem_uc main_arg6 (by decide))).trans (B12_arg m c main_arg6 (by decide)),
      (h c _ (mem_uc main_arg7 (by decide))).trans (B12_arg m c main_arg7 (by decide)),
      (h c _ (mem_uc main_arg8 (by decide))).trans (B12_arg m c main_arg8 (by decide)),
      (h c _ (mem_uc main_arg9 (by decide))).trans (B12_arg m c main_arg9 (by decide)),
      (h c _ (mem_uc main_arg10 (by decide))).trans (B12_arg m c main_arg10 (by decide)),
      (h c _ (mem_uc main_arg11 (by decide))).trans (B12_arg m c main_arg11 (by decide)),
      (h c _ (mem_uc main_arg12 (by decide))).trans (B12_arg m c main_arg12 (by decide))⟩) (run_all m ρ)

end Cert.Kernel.Hand

end
-- ==== Proof.KI.Region0.lean ====
/- Region 0 (h = x · w + b over 16 row blocks): the body's triple and the body obligation at every grid point. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeX : Rect S4096x128 := Rect.unit (s := S4096x128) ![0, 0] S4096x128.size inb_S4096x128_S4096x128_0_0
abbrev wholeW : Rect S128x64 := Rect.unit (s := S128x64) ![0, 0] S128x64.size inb_S128x64_S128x64_0_0
abbrev wholeB : Rect S1x64 := Rect.unit (s := S1x64) ![0, 0] S1x64.size inb_S1x64_S1x64_0_0
abbrev wholeH : Rect S4096x64 := Rect.unit (s := S4096x64) ![0, 0] S4096x64.size inb_S4096x64_S4096x64_0_0

def out0 (x0 : Vec F S4096x128 .f32) (x1 : Vec F S128x64 .f32) (x2 : Vec F S1x64 .f32) : Vec F S4096x64 .f32 :=
  View.canon [⟨wholeH, k0_pay1 (View.ld x0 wholeX) (View.ld x1 wholeW) (View.ld x2 wholeB)⟩]

theorem cover0 (p0 : Vec F S4096x64 .f32) (y : S4096x64.Idx) :
    ∃ pc ∈ ([⟨wholeH, p0⟩] : List (View.Piece (Elt F) S4096x64 .f32)), y ∈ pc.1.set :=
  View.cover_of_tiled [⟨wholeH, p0⟩] S4096x64.size (by rfl) y

set_option maxHeartbeats 1000000 in
theorem sound_kernel0 (c : Dev nD) (E : Set ℕ) (i : grid0.Coords)
    (arg1 : Memref sig .tc .vmem S4096x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S4096x64 .f32) (harg4 : arg4.IsWhole)
    (x0 : Vec F S4096x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__fc1_kernel i arg1 harg1 arg2 harg2 arg3 harg3 arg4 harg4) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Layer.lean ====
/- The layer kernel, run by four regions: its result block as a function of its seven input blocks, and the body's triple. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev lw0 : Rect S4096x64 := Rect.unit (s := S4096x64) ![0, 0] S4096x64.size inb_S4096x64_S4096x64_0_0
abbrev lw1 : Rect S4096x64 := Rect.unit (s := S4096x64) ![0, 0] S4096x64.size inb_S4096x64_S4096x64_0_0
abbrev lw2 : Rect S4096x1 := Rect.unit (s := S4096x1) ![0, 0] S4096x1.size inb_S4096x1_S4096x1_0_0
abbrev lw3 : Rect S64x64 := Rect.unit (s := S64x64) ![0, 0] S64x64.size inb_S64x64_S64x64_0_0
abbrev lw4 : Rect S1x64 := Rect.unit (s := S1x64) ![0, 0] S1x64.size inb_S1x64_S1x64_0_0
abbrev lw5 : Rect S64x64 := Rect.unit (s := S64x64) ![0, 0] S64x64.size inb_S64x64_S64x64_0_0
abbrev lw6 : Rect S1x64 := Rect.unit (s := S1x64) ![0, 0] S1x64.size inb_S1x64_S1x64_0_0
abbrev lw7 : Rect S4096x64 := Rect.unit (s := S4096x64) ![0, 0] S4096x64.size inb_S4096x64_S4096x64_0_0

def layerOut (xA : Vec F S4096x64 .f32) (xB : Vec F S4096x64 .f32) (xC : Vec F S4096x1 .f32) (xD : Vec F S64x64 .f32) (xE : Vec F S1x64 .f32) (xF : Vec F S64x64 .f32) (xG : Vec F S1x64 .f32) : Vec F S4096x64 .f32 :=
  View.canon [⟨lw7, k1_pay1 (View.ld xA lw0) (View.ld xB lw1) (View.ld xD lw3) (View.ld xE lw4) (View.ld xF lw5) (View.ld xG lw6) (View.ld xC lw2)⟩]

theorem layerCover (p : Vec F S4096x64 .f32) (y : S4096x64.Idx) :
    ∃ pc ∈ ([⟨lw7, p⟩] : List (View.Piece (Elt F) S4096x64 .f32)), y ∈ pc.1.set :=
  View.cover_of_tiled [⟨lw7, p⟩] S4096x64.size (by rfl) y

set_option maxHeartbeats 4000000 in
theorem sound_layer (c : Dev nD) (E : Set ℕ) (i : grid1.Coords) (mA : Memref sig .tc .vmem S4096x64 .f32) (hmA : mA.IsWhole) (mB : Memref sig .tc .vmem S4096x64 .f32) (hmB : mB.IsWhole) (mC : Memref sig .tc .vmem S4096x1 .f32) (hmC : mC.IsWhole) (mD : Memref sig .tc .vmem S64x64 .f32) (hmD : mD.IsWhole) (mE : Memref sig .tc .vmem S1x64 .f32) (hmE : mE.IsWhole) (mF : Memref sig .tc .vmem S64x64 .f32) (hmF : mF.IsWhole) (mG : Memref sig .tc .vmem S1x64 .f32) (hmG : mG.IsWhole) (mH : Memref sig .tc .vmem S4096x64 .f32) (hmH : mH.IsWhole)
    (xA : Vec F S4096x64 .f32) (xB : Vec F S4096x64 .f32) (xC : Vec F S4096x1 .f32) (xD : Vec F S64x64 .f32) (xE : Vec F S1x64 .f32) (xF : Vec F S64x64 .f32) (xG : Vec F S1x64 .f32) (K : PUnit → sProp 𝕄) :
    iprop(owns (c : Thread nD τ) mA fullShare xA ∗ owns (c : Thread nD τ) mB fullShare xB ∗ owns (c : Thread nD τ) mC fullShare xC ∗ owns (c : Thread nD τ) mD fullShare xD ∗ owns (c : Thread nD τ) mE fullShare xE ∗ owns (c : Thread nD τ) mF fullShare xF ∗ owns (c : Thread nD τ) mG fullShare xG ∗ (∃ d, owns (c : Thread nD τ) mH fullShare d)
        ∗ (iprop(owns (c : Thread nD τ) mA fullShare xA ∗ owns (c : Thread nD τ) mB fullShare xB ∗ owns (c : Thread nD τ) mC fullShare xC ∗ owns (c : Thread nD τ) mD fullShare xD ∗ owns (c : Thread nD τ) mE fullShare xE ∗ owns (c : Thread nD τ) mF fullShare xF ∗ owns (c : Thread nD τ) mG fullShare xG ∗ owns (c : Thread nD τ) mH fullShare (layerOut xA xB xC xD xE xF xG)) -∗ K ⟨⟩))
      ⊢ wp frame (wpE (defs₀ (F := F)) Variants.none c none) E (cc1__mlp_kernel i mA hmA mB hmB mC hmC mD hmD mE hmE mF hmF mG hmG mH hmH) K := by
  simp only [cc1__mlp_kernel_eq_skeleton]; unfold cc1__mlp_kernel_skel
  unfold owns
  iintro ⟨⟨%fA, %hfA, HA⟩, ⟨%fB, %hfB, HB⟩, ⟨%fC, %hfC, HC⟩, ⟨%fD, %hfD, HD⟩, ⟨%fE, %hfE, HE⟩, ⟨%fF, %hfF, HF⟩, ⟨%fG, %hfG, HG⟩, ⟨%dH, %fH, -, HH⟩, Hk⟩
  subst hfA; subst hfB; subst hfC; subst hfD; subst hfE; subst hfF; subst hfG
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  isplitl [HE]
  · iexists fE; isplitr; · ipureintro; rfl
    iexact HE
  isplitl [HF]
  · iexists fF; isplitr; · ipureintro; rfl
    iexact HF
  isplitl [HG]
  · iexists fG; isplitr; · ipureintro; rfl
    iexact HG
  iexists _; isplitr
  swap; · iexact HH
  ipureintro
  exact View.read_writes_eq_canon _ _ _ (layerCover _)

end Cert.KernelIdeal.Hand

end
-- ==== Proof.KI.Region1.lean ====
/- A layer region: the body's triple and the body obligation at every grid point. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import proofs.«401991_j17171279249890_1_alg».proof.Proof.KI.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => layerOut (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = layerOut (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  show _ ⊢ wp frame _ Set.univ (cc1__mlp_kernel (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation1 (c : Dev nD) : BodyObligation (dat1 (F := F) V c) (defs₀ (F := F)) Variants.none () Set.univ := fun t => by
  rw [bigSep_W1, bigSep_W1]
  exact sound_body1 V c t

end Region

end Cert.KernelIdeal.Hand
-- ==== Proof.KI.Region2.lean ====
/- A layer region: the body's triple and the body obligation at every grid point. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import proofs.«401991_j17171279249890_1_alg».proof.Proof.KI.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => layerOut (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = layerOut (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  show _ ⊢ wp frame _ Set.univ (cc1__mlp_kernel (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation2 (c : Dev nD) : BodyObligation (dat2 (F := F) V c) (defs₀ (F := F)) Variants.none () Set.univ := fun t => by
  rw [bigSep_W2, bigSep_W2]
  exact sound_body2 V c t

end Region

end Cert.KernelIdeal.Hand
-- ==== Proof.KI.Region3.lean ====
/- A layer region: the body's triple and the body obligation at every grid point. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import proofs.«401991_j17171279249890_1_alg».proof.Proof.KI.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => layerOut (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = layerOut (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  show _ ⊢ wp frame _ Set.univ (cc1__mlp_kernel (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation3 (c : Dev nD) : BodyObligation (dat3 (F := F) V c) (defs₀ (F := F)) Variants.none () Set.univ := fun t => by
  rw [bigSep_W3, bigSep_W3]
  exact sound_body3 V c t

end Region

end Cert.KernelIdeal.Hand
-- ==== Proof.KI.Region4.lean ====
/- A layer region: the body's triple and the body obligation at every grid point. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import proofs.«401991_j17171279249890_1_alg».proof.Proof.KI.Layer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => layerOut (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = layerOut (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 V c).before 6 t d = iblk4 V c 6 t :=
  ((dat4 V c).before_in_eq_fetched 6 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  show _ ⊢ wp frame _ Set.univ (cc1__mlp_kernel (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7))) _
  iintro ⟨HΦ, Ho, ⟨%dA, HA⟩, ⟨%dB, HB⟩, ⟨%dC, HC⟩, ⟨%dD, HD⟩, ⟨%dE, HE⟩, ⟨%dF, HF⟩, ⟨%dG, HG⟩, ⟨%dH, HH⟩⟩
  iapply (sound_layer c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexists _; iexact HH
  iintro ⟨HA, HB, HC, HD, HE, HF, HG, HH⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  isplitl [HF]; · iexact HF
  isplitl [HG]; · iexact HG
  iexact HH

theorem body_obligation4 (c : Dev nD) : BodyObligation (dat4 (F := F) V c) (defs₀ (F := F)) Variants.none () Set.univ := fun t => by
  rw [bigSep_W4, bigSep_W4]
  exact sound_body4 V c t

end Region

end Cert.KernelIdeal.Hand
-- ==== Proof.KI.Region5Runs.lean ====
/- Region 5 (pooling over 5 layers × 64 row tiles): the body's triple in each control case. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Region5

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 64 = 0 :=
  (by decide +kernel : ∀ t : Fin grid5.N, cond5_0 (grid5.coords t) ↔ t.val % 64 = 0)

abbrev cond5_1 (i : grid5.Coords) : Prop := k5_cond2 i = 1#1

theorem hcond5_1 : ∀ t : Fin cfg5.N, cond5_1 (grid5.coords t) ↔ t.val = 0 :=
  (by decide +kernel : ∀ t : Fin grid5.N, cond5_1 (grid5.coords t) ↔ t.val = 0)

abbrev cond5_2 (i : grid5.Coords) : Prop := k5_cond3 i = 1#1

theorem hcond5_2 : ∀ t : Fin cfg5.N, cond5_2 (grid5.coords t) ↔ t.val % 64 = 63 :=
  (by decide +kernel : ∀ t : Fin grid5.N, cond5_2 (grid5.coords t) ↔ t.val % 64 = 63)

theorem idle5_4 : ∀ t : Fin cfg5.N, cfg5.idle 4 (grid5.coords t) = true ↔ (t.val ≠ 0 ∧ t.val % 64 ≠ 63) :=
  (by decide +kernel : ∀ t : Fin grid5.N, cfg5.idle 4 (grid5.coords t) = true ↔ (t.val ≠ 0 ∧ t.val % 64 ≠ 63))

theorem live5_4 (t : Fin cfg5.N) (h : t.val = 0 ∨ t.val % 64 = 63) : cfg5.idle 4 (grid5.coords t) = false := by
  rw [Bool.eq_false_iff]; intro hi; have := (idle5_4 t).mp hi; omega

theorem noFlush5_4 (t : Fin cfg5.N) (h : t.val ≠ 319) : (cfg5.win 4).flush t = false := by
  rw [Bool.eq_false_iff]; intro hf
  have := (flush5_4 t).mp hf
  have hN : t.val < 320 := lt_of_lt_of_eq t.isLt (show cfg5.N = 320 from N_5)
  omega

abbrev ms5_0 (t : Fin cfg5.N) : Memref sig .tc .vmem S1x1024x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64x10 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x10 .f32 := win5_4.stage (cfg5.slots t 4)
abbrev hs5_4 (t : Fin cfg5.N) : (ms5_4 t).IsWhole := hstage5_4 ((cfg5.slots t 4).cast nbuf5_4)

abbrev scM5 : Memref sig .tc .vmem S512x64 .f32 := Memref.whole cc5_scratch0

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.KernelIdeal.Hand

end
-- ==== Proof.KI.Region5Cases.lean ====
/- Region 5: the three branch conditions meet in four control cases over the grid. -/
import proofs.«401991_j17171279249890_1_alg».proof.Proof.KI.Region5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem readCov_whole {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
theorem kernelRun5_B (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : ¬cond5_0 i) (hc1 : ¬cond5_1 i) (hc2 : ¬cond5_2 i)
    (x0 : Vec F S1x1024x64 .f32) (x1 : Vec F S1024 .i32) (x2 : Vec F S1x64x10 .f32) (x3 : Vec F S1x1x10 .f32)
    (xo : Vec F S512x10 .f32) (xs : Vec F S512x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k5_pay3 x0 x1 xs)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  iexists _; isplitr
  swap; · iexact HS
  ipureintro
  rw [read_writes_whole _ _ zeros2]
  simp only [View.readAt_eq_ld, hf0, hf1, hfs, View.ld_unit_zero (S := S1x1024x64) zeros3, View.ld_unit_zero (S := S1024) zeros1,
    View.ld_unit_zero (S := S512x64) zeros2]

set_option maxHeartbeats 1000000 in
theorem kernelRun5_C (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : ¬cond5_0 i) (hc1 : ¬cond5_1 i) (hc2 : cond5_2 i)
    (x0 : Vec F S1x1024x64 .f32) (x1 : Vec F S1024 .i32) (x2 : Vec F S1x64x10 .f32) (x3 : Vec F S1x1x10 .f32)
    (xo : Vec F S512x10 .f32) (xs : Vec F S512x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k5_pay4 (k5_pay3 x0 x1 xs) x2 x3 xo)
            ∗ owns (c : Thread nD τ) arg7 fullShare (k5_pay3 x0 x1 xs)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr
    swap; · iexact HO
    ipureintro
    sl_unfold_words
    rw [read_writes_whole _ _ zeros2, readCov_whole _ zeros2]
    simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3, hfo, hfs]
  iexists _; isplitr
  swap; · iexact HS
  ipureintro
  sl_unfold_words
  rw [read_writes_whole _ _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3, hfs]

set_option maxHeartbeats 1000000 in
theorem kernelRun5_D (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : cond5_0 i) (hc1 : ¬cond5_1 i) (hc2 : ¬cond5_2 i)
    (x0 : Vec F S1x1024x64 .f32) (x1 : Vec F S1024 .i32) (x2 : Vec F S1x64x10 .f32) (x3 : Vec F S1x1x10 .f32)
    (xo : Vec F S512x10 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k5_pay3 x0 x1 k5_pay1)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%fo, %hfo, HO⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  iexists _; isplitr
  swap; · iexact HS
  ipureintro
  sl_unfold_words
  rw [read_writes_whole _ _ zeros2, readCov_whole _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3]

set_option maxHeartbeats 1000000 in
theorem kernelRun5_A (c : Dev nD) (i : grid5.Coords)
    (arg2 : Memref sig .tc .vmem S1x1024x64 .f32) (harg2 : arg2.IsWhole) (arg3 : Memref sig .tc .vmem S1024 .i32) (harg3 : arg3.IsWhole)
    (arg4 : Memref sig .tc .vmem S1x64x10 .f32) (harg4 : arg4.IsWhole) (arg5 : Memref sig .tc .vmem S1x1x10 .f32) (harg5 : arg5.IsWhole)
    (arg6 : Memref sig .tc .vmem S512x10 .f32) (harg6 : arg6.IsWhole) (arg7 : Memref sig .tc .vmem S512x64 .f32) (harg7 : arg7.IsWhole)
    (hc0 : cond5_0 i) (hc1 : cond5_1 i) (hc2 : ¬cond5_2 i)
    (x0 : Vec F S1x1024x64 .f32) (x1 : Vec F S1024 .i32) (x2 : Vec F S1x64x10 .f32) (x3 : Vec F S1x1x10 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare k5_pay2
            ∗ owns (c : Thread nD τ) arg7 fullShare (k5_pay3 x0 x1 k5_pay1)) -∗ K ⟨⟩))
      ⊢ wp frame (wpE (defs₀ (F := F)) Variants.none c none) E (cc5__pool_kernel i arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%d6, %fo, -, HO⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr
    swap; · iexact HO
    ipureintro
    exact read_writes_whole _ _ zeros2 _ _ _
  iexists _; isplitr
  swap; · iexact HS
  ipureintro
  sl_unfold_words
  rw [read_writes_whole _ _ zeros2, readCov_whole _ zeros2]
  simp only [View.readAt_eq_ld, hf0, hf1, hf2, hf3, View.ld_unit_zero (S := S1x1024x64) zeros3, View.ld_unit_zero (S := S1024) zeros1,
    View.ld_unit_zero (S := S512x64) zeros2, View.ld_unit_zero (S := S512x10) zeros2, View.ld_unit_zero (S := S1x64x10) zeros3, View.ld_unit_zero (S := S1x1x10) zeros3]

end Cert.KernelIdeal.Hand

end
-- ==== Proof.KI.Region5.lean ====
/- Region 5: the accumulated sums after each of the 320 points, by recursion on the point; the body obligation. -/
import proofs.«401991_j17171279249890_1_alg».proof.Proof.KI.Region5Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def outsAt5 (c : Dev nD) : (n : ℕ) → n < cfg5.N → Vec F S512x10 .f32 × Vec F S512x64 .f32
  | 0, hn => (k5_pay2, k5_pay3 (iblk5 V c 0 ⟨0, hn⟩) (iblk5 V c 1 ⟨0, hn⟩) k5_pay1)
  | n + 1, hn =>
    if (n + 1) % 64 = 0 then
      ((outsAt5 c n (Nat.lt_of_succ_lt hn)).1, k5_pay3 (iblk5 V c 0 ⟨n + 1, hn⟩) (iblk5 V c 1 ⟨n + 1, hn⟩) k5_pay1)
    else if (n + 1) % 64 = 63 then
      (k5_pay4 (k5_pay3 (iblk5 V c 0 ⟨n + 1, hn⟩) (iblk5 V c 1 ⟨n + 1, hn⟩) (outsAt5 c n (Nat.lt_of_succ_lt hn)).2)
          (iblk5 V c 2 ⟨n + 1, hn⟩) (iblk5 V c 3 ⟨n + 1, hn⟩) (outsAt5 c n (Nat.lt_of_succ_lt hn)).1,
        k5_pay3 (iblk5 V c 0 ⟨n + 1, hn⟩) (iblk5 V c 1 ⟨n + 1, hn⟩) (outsAt5 c n (Nat.lt_of_succ_lt hn)).2)
    else
      ((outsAt5 c n (Nat.lt_of_succ_lt hn)).1,
        k5_pay3 (iblk5 V c 0 ⟨n + 1, hn⟩) (iblk5 V c 1 ⟨n + 1, hn⟩) (outsAt5 c n (Nat.lt_of_succ_lt hn)).2)

theorem outsAt5_A (c : Dev nD) (t : Fin cfg5.N) (hz : t.val = 0) :
    outsAt5 V c t.val t.isLt = (k5_pay2, k5_pay3 (iblk5 V c 0 t) (iblk5 V c 1 t) k5_pay1) := by
  obtain ⟨n, hn⟩ := t
  cases n with
  | zero => rfl
  | succ n => exact absurd hz (Nat.succ_ne_zero n)

theorem outsAt5_B (c : Dev nD) (t : Fin cfg5.N) (h0 : t.val % 64 ≠ 0) (h2 : t.val % 64 ≠ 63) :
    outsAt5 V c t.val t.isLt = ((outsAt5 V c (t.val - 1) (Nat.lt_of_le_of_lt (Nat.sub_le _ _) t.isLt)).1, k5_pay3 (iblk5 V c 0 t) (iblk5 V c 1 t) (outsAt5 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h2).trans rfl)

theorem outsAt5_C (c : Dev nD) (t : Fin cfg5.N) (h2 : t.val % 64 = 63) :
    outsAt5 V c t.val t.isLt = (k5_pay4 (k5_pay3 (iblk5 V c 0 t) (iblk5 V c 1 t) (outsAt5 V c (t.val - 1) (Nat.lt_of_le_of_lt (Nat.sub_le _ _) t.isLt)).2) (iblk5 V c 2 t) (iblk5 V c 3 t) (outsAt5 V c (t.val - 1) (Nat.lt_of_le_of_lt (Nat.sub_le _ _) t.isLt)).1,
      k5_pay3 (iblk5 V c 0 t) (iblk5 V c 1 t) (outsAt5 V c (t.val - 1) (Nat.lt_of_le_of_lt (Nat.sub_le _ _) t.isLt)).2) := by
  obtain ⟨n, hn⟩ := t
  cases n with
  | zero => exact absurd h2 (by dsimp only; omega)
  | succ n => exact (if_neg (by dsimp only at h2; omega)).trans ((if_pos h2).trans rfl)

theorem outsAt5_D (c : Dev nD) (t : Fin cfg5.N) (h0 : t.val % 64 = 0) (hz : t.val ≠ 0) :
    outsAt5 V c t.val t.isLt = ((outsAt5 V c (t.val - 1) (Nat.lt_of_le_of_lt (Nat.sub_le _ _) t.isLt)).1, k5_pay3 (iblk5 V c 0 t) (iblk5 V c 1 t) k5_pay1) := by
  obtain ⟨n, hn⟩ := t
  cases n with
  | zero => exact absurd rfl hz
  | succ n => exact (if_pos h0).trans rfl

theorem outsAt5_eq (c : Dev nD) (n : ℕ) (h : n < cfg5.N) :
    outsAt5 V c n h =
      ((if n % 64 = 63 then
          k5_pay4 (k5_pay3 (iblk5 V c 0 ⟨n, h⟩) (iblk5 V c 1 ⟨n, h⟩)
              (if n % 64 = 0 then k5_pay1 else (outsAt5 V c (n - 1) (Nat.lt_of_le_of_lt (Nat.sub_le _ _) h)).2))
            (iblk5 V c 2 ⟨n, h⟩) (iblk5 V c 3 ⟨n, h⟩)
            (if n = 0 then k5_pay2 else (outsAt5 V c (n - 1) (Nat.lt_of_le_of_lt (Nat.sub_le _ _) h)).1)
        else (if n = 0 then k5_pay2 else (outsAt5 V c (n - 1) (Nat.lt_of_le_of_lt (Nat.sub_le _ _) h)).1)),
        k5_pay3 (iblk5 V c 0 ⟨n, h⟩) (iblk5 V c 1 ⟨n, h⟩)
          (if n % 64 = 0 then k5_pay1 else (outsAt5 V c (n - 1) (Nat.lt_of_le_of_lt (Nat.sub_le _ _) h)).2)) := by
  by_cases hz : n = 0
  · subst hz; rw [if_neg (by decide), if_pos rfl, if_pos (Nat.zero_mod _)]; rfl
  · by_cases h0 : n % 64 = 0
    · rw [outsAt5_D V c ⟨n, h⟩ h0 hz, if_neg (by omega), if_neg hz, if_pos h0]
    · by_cases h2 : n % 64 = 63
      · rw [outsAt5_C V c ⟨n, h⟩ h2, if_pos h2, if_neg h0, if_neg hz]
      · rw [outsAt5_B V c ⟨n, h⟩ h0 h2, if_neg h2, if_neg h0, if_neg hz]

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

theorem q_eq5 (c : Dev nD) (w : Fin cfg5.W) : (dat5 V c).q w = fullShare := rfl
theorem owed_eq5 (c : Dev nD) (t : Fin (cfg5.N + 1)) : (dat5 V c).owed t = 0 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem kept5_4 (c : Dev nD) (t : Fin cfg5.N) (d) : (dat5 V c).kept 4 t d = (outsAt5 V c t.val t.isLt).1 := by
  unfold Dat.kept
  rw [Pipeline.fill_of_clip_none (cfg := cfg5) 4 _ (fun _ => rfl) d ((dat5 V c).after 4 t), Pipeline.Window.fill_cut, after5_4]

theorem before5_4 (c : Dev nD) : ∀ (n : ℕ) (hn : n + 1 < cfg5.N) (d),
    (dat5 V c).before 4 ⟨n + 1, hn⟩ d = (outsAt5 V c n (Nat.lt_of_succ_lt hn)).1 := by
  intro n
  induction n with
  | zero =>
    intro hn d
    rw [(dat5 V c).before_of_pos 4 ⟨0 + 1, hn⟩ (Nat.succ_ne_zero 0) ((cfg5.win 4).fetch_out rfl _)]
    show (if (cfg5.win 4).flush ⟨0, Nat.lt_of_succ_lt hn⟩ then d else (dat5 V c).left 4 ⟨0, Nat.lt_of_succ_lt hn⟩ d) = _
    rw [noFlush5_4 ⟨0, Nat.lt_of_succ_lt hn⟩ (by show (0 : ℕ) ≠ 319; decide), if_neg Bool.false_ne_true]
    unfold Dat.left
    rw [live5_4 ⟨0, Nat.lt_of_succ_lt hn⟩ (Or.inl rfl)]
    exact kept5_4 V c ⟨0, Nat.lt_of_succ_lt hn⟩ d
  | succ k ih =>
    intro hn d
    have hN : k + 1 + 1 < 320 := lt_of_lt_of_eq hn (show cfg5.N = 320 from N_5)
    rw [(dat5 V c).before_of_pos 4 ⟨k + 1 + 1, hn⟩ (Nat.succ_ne_zero _) ((cfg5.win 4).fetch_out rfl _)]
    show (if (cfg5.win 4).flush ⟨k + 1, Nat.lt_of_succ_lt hn⟩ then d else (dat5 V c).left 4 ⟨k + 1, Nat.lt_of_succ_lt hn⟩ d) = _
    rw [noFlush5_4 ⟨k + 1, Nat.lt_of_succ_lt hn⟩ (by dsimp only; omega), if_neg Bool.false_ne_true]
    unfold Dat.left
    by_cases hi : cfg5.idle 4 (grid5.coords ⟨k + 1, Nat.lt_of_succ_lt hn⟩) = true
    · rw [hi]
      obtain ⟨-, h63⟩ := (idle5_4 ⟨k + 1, Nat.lt_of_succ_lt hn⟩).mp hi
      show (dat5 V c).before 4 ⟨k + 1, Nat.lt_of_succ_lt hn⟩ d = _
      rw [ih (Nat.lt_of_succ_lt hn) d]
      by_cases h0 : (k + 1) % 64 = 0
      · rw [outsAt5_D V c ⟨k + 1, Nat.lt_of_succ_lt hn⟩ h0 (Nat.succ_ne_zero k)]; rfl
      · rw [outsAt5_B V c ⟨k + 1, Nat.lt_of_succ_lt hn⟩ h0 h63]; rfl
    · rw [Bool.not_eq_true] at hi
      rw [hi]
      exact kept5_4 V c ⟨k + 1, Nat.lt_of_succ_lt hn⟩ d

theorem before5_4_pos (c : Dev nD) (t : Fin cfg5.N) (hz : t.val ≠ 0) (d) :
    (dat5 V c).before 4 t d = (outsAt5 V c (t.val - 1) (Nat.lt_of_le_of_lt (Nat.sub_le _ _) t.isLt)).1 := by
  obtain ⟨n, hn⟩ := t
  cases n with
  | zero => exact absurd rfl hz
  | succ n => exact before5_4 V c n hn d

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 2000000 in
theorem sound_body5_A (c : Dev nD) (t : Fin cfg5.N) (hz : t.val = 0) :
    bodyPre5 V c t ⊢ wp frame (wpE (defs₀ (F := F)) Variants.none c none) Set.univ (bodyAt5 t) (fun _ => bodyPost5 V c t) := by
  have h0 : t.val % 64 = 0 := by rw [hz]
  have h2 : ¬ t.val % 64 = 63 := by rw [hz]; decide
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [live5_4 t (Or.inl hz)], after5_4]
  rw [outsAt5_A V c t hz]
  rw [PhiS5_castSucc V c t, PhiS5_zero V c _ _ hz, PhiA5_eq]
  iintro ⟨⟨⟨HS, HR⟩, Hg⟩, Ho, ⟨%d0, H0⟩, ⟨%d1, H1⟩, ⟨%d2, H2⟩, ⟨%d3, H3⟩, ⟨%d4, H4⟩⟩
  iapply (kernelRun5_A c (grid5.coords t) _ _ _ _ _ _ _ _ _ _ _ _ ((hcond5_0 t).mpr h0) ((hcond5_1 t).mpr hz) (fun h => h2 ((hcond5_2 t).mp h)) (iblk5 V c 0 t) (iblk5 V c 1 t) (iblk5 V c 2 t) (iblk5 V c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

set_option maxHeartbeats 2000000 in
theorem sound_body5_B (c : Dev nD) (t : Fin cfg5.N) (h0 : ¬ t.val % 64 = 0) (h2 : ¬ t.val % 64 = 63) :
    bodyPre5 V c t ⊢ wp frame (wpE (defs₀ (F := F)) Variants.none c none) Set.univ (bodyAt5 t) (fun _ => bodyPost5 V c t) := by
  have hz : t.val ≠ 0 := fun h => h0 (by rw [h])
  have hN : t.val < 320 := lt_of_lt_of_eq t.isLt (show cfg5.N = 320 from N_5)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [Dat.leavesExact_idle (dat5 V c) 4 t ((idle5_4 t).mpr ⟨hz, h2⟩) (noFlush5_4 t (by omega))]
  rw [outsAt5_B V c t h0 h2]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_B c (grid5.coords t) _ _ _ _ _ _ _ _ _ _ _ _ (fun h => h0 ((hcond5_0 t).mp h)) (fun h => hz ((hcond5_1 t).mp h)) (fun h => h2 ((hcond5_2 t).mp h)) (iblk5 V c 0 t) (iblk5 V c 1 t) (iblk5 V c 2 t) (iblk5 V c 3 t) _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
theorem sound_body5_C (c : Dev nD) (t : Fin cfg5.N) (h2 : t.val % 64 = 63) :
    bodyPre5 V c t ⊢ wp frame (wpE (defs₀ (F := F)) Variants.none c none) Set.univ (bodyAt5 t) (fun _ => bodyPost5 V c t) := by
  have h0 : ¬ t.val % 64 = 0 := by omega
  have hz : t.val ≠ 0 := fun h => h0 (by rw [h])
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [live5_4 t (Or.inr h2)], after5_4]
  rw [outsAt5_C V c t h2]
  simp only [before5_4_pos V c t hz]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_C c (grid5.coords t) _ _ _ _ _ _ _ _ _ _ _ _ (fun h => h0 ((hcond5_0 t).mp h)) (fun h => hz ((hcond5_1 t).mp h)) ((hcond5_2 t).mpr h2) (iblk5 V c 0 t) (iblk5 V c 1 t) (iblk5 V c 2 t) (iblk5 V c 3 t) _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

set_option maxHeartbeats 2000000 in
theorem sound_body5_D (c : Dev nD) (t : Fin cfg5.N) (h0 : t.val % 64 = 0) (hz : t.val ≠ 0) :
    bodyPre5 V c t ⊢ wp frame (wpE (defs₀ (F := F)) Variants.none c none) Set.univ (bodyAt5 t) (fun _ => bodyPost5 V c t) := by
  have h2 : ¬ t.val % 64 = 63 := by omega
  have hN : t.val < 320 := lt_of_lt_of_eq t.isLt (show cfg5.N = 320 from N_5)
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [Dat.leavesExact_idle (dat5 V c) 4 t ((idle5_4 t).mpr ⟨hz, h2⟩) (noFlush5_4 t (by omega))]
  rw [outsAt5_D V c t h0 hz]
  rw [PhiS5_castSucc V c t, PhiS5_pos V c _ _ hz]
  iintro ⟨⟨⟨HS, HR⟩, Hg⟩, Ho, ⟨%d0, H0⟩, ⟨%d1, H1⟩, ⟨%d2, H2⟩, ⟨%d3, H3⟩, ⟨%d4, H4⟩⟩
  iapply (kernelRun5_D c (grid5.coords t) _ _ _ _ _ _ _ _ _ _ _ _ ((hcond5_0 t).mpr h0) (fun h => hz ((hcond5_1 t).mp h)) (fun h => h2 ((hcond5_2 t).mp h)) (iblk5 V c 0 t) (iblk5 V c 1 t) (iblk5 V c 2 t) (iblk5 V c 3 t) _ Set.univ _)
  isplitl [H0]; · iexact H0
  isplitl [H1]; · iexact H1
  isplitl [H2]; · iexact H2
  isplitl [H3]; · iexact H3
  isplitl [H4]; · iexact H4
  isplitl [HS]; · iexists _; iexact HS
  iintro ⟨H0, H1, H2, H3, H4, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexists _; iexact H4

theorem sound_body5 (c : Dev nD) (t : Fin cfg5.N) :
    bodyPre5 V c t ⊢ wp frame (wpE (defs₀ (F := F)) Variants.none c none) Set.univ (bodyAt5 t) (fun _ => bodyPost5 V c t) := by
  by_cases hz : t.val = 0
  · exact sound_body5_A V c t hz
  · by_cases h0 : t.val % 64 = 0
    · exact sound_body5_D V c t h0 hz
    · by_cases h2 : t.val % 64 = 63
      · exact sound_body5_C V c t h2
      · exact sound_body5_B V c t h0 h2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]

theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

theorem hout5 (c : Dev nD) : (dat5 V c).Φ (Fin.last cfg5.N) ⊢ (Pipeline.ΦA spec5 c : sProp 𝕄) :=
  Phi_out5 V c _ (by rw [Fin.val_last]; have : cfg5.N = 320 := N_5; omega)

end Region5

end Cert.KernelIdeal.Hand

end
-- ==== Proof.KI.Run.lean ====
/- The whole program's run: each region is a segment between two boundary valuations, no stretch and no region writes an argument,
  and the result array ends at what the last region leaves. -/
import proofs.«401991_j17171279249890_1_alg».proof.Proof.Gen.KernelIdeal.Launch
import proofs.«401991_j17171279249890_1_alg».proof.Proof.Gen.KernelIdeal.Skeleton
import proofs.«401991_j17171279249890_1_alg».proof.Proof.Gen.KernelIdeal.Points
import proofs.«401991_j17171279249890_1_alg».proof.Proof.Gen.KernelIdeal.Regions
import proofs.«401991_j17171279249890_1_alg».proof.Proof.KI.Region0
import proofs.«401991_j17171279249890_1_alg».proof.Proof.KI.Region1
import proofs.«401991_j17171279249890_1_alg».proof.Proof.KI.Region2
import proofs.«401991_j17171279249890_1_alg».proof.Proof.KI.Region3
import proofs.«401991_j17171279249890_1_alg».proof.Proof.KI.Region4
import proofs.«401991_j17171279249890_1_alg».proof.Proof.KI.Region5
import proofs.«401991_j17171279249890_1_alg».proof.Proof.LibClassARegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => m (c, b)

abbrev B1 : Dev nD → Valuation τ sig (Elt F) := fun c => StableHlo.after hostOps0 (B0 m c)

abbrev E1 : (c : Dev nD) → (b : Ref sig .tc) → Buf (Elt F) ((c : Thread nD τ).loc b) := fun c b => B1 m c b

def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

theorem B2_keep (c : Dev nD) (b : Ref sig .tc) (hb : b ≠ main_v1) : B2 m c (Proc.devRef .tc b) = B1 m c (Proc.devRef .tc b) := by
  by_cases h : ∃ w, Pipeline.arrRef spec0 w = b
  · obtain ⟨w, rfl⟩ := h
    have hin : (cfg0.win w).isOut = false := by
      revert hb; revert w; decide
    exact (B2_arr m c w).trans (((dat0 (E1 m) c).arrAt_in w hin _).trans (A_eq0 (E1 m) c w))
  · exact B2_of_ne m c b fun w e => h ⟨w, e⟩

abbrev B3 : Dev nD → Valuation τ sig (Elt F) := fun c => StableHlo.after hostOps1 (B2 m c)

abbrev E3 : (c : Dev nD) → (b : Ref sig .tc) → Buf (Elt F) ((c : Thread nD τ).loc b) := fun c b => B3 m c b

def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

theorem B4_keep (c : Dev nD) (b : Ref sig .tc) (hb : b ≠ main_v22) : B4 m c (Proc.devRef .tc b) = B3 m c (Proc.devRef .tc b) := by
  by_cases h : ∃ w, Pipeline.arrRef spec1 w = b
  · obtain ⟨w, rfl⟩ := h
    have hin : (cfg1.win w).isOut = false := by
      revert hb; revert w; decide
    exact (B4_arr m c w).trans (((dat1 (E3 m) c).arrAt_in w hin _).trans (A_eq1 (E3 m) c w))
  · exact B4_of_ne m c b fun w e => h ⟨w, e⟩

abbrev B5 : Dev nD → Valuation τ sig (Elt F) := fun c => StableHlo.after hostOps2 (B4 m c)

abbrev E5 : (c : Dev nD) → (b : Ref sig .tc) → Buf (Elt F) ((c : Thread nD τ).loc b) := fun c b => B5 m c b

def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

theorem B6_keep (c : Dev nD) (b : Ref sig .tc) (hb : b ≠ main_v43) : B6 m c (Proc.devRef .tc b) = B5 m c (Proc.devRef .tc b) := by
  by_cases h : ∃ w, Pipeline.arrRef spec2 w = b
  · obtain ⟨w, rfl⟩ := h
    have hin : (cfg2.win w).isOut = false := by
      revert hb; revert w; decide
    exact (B6_arr m c w).trans (((dat2 (E5 m) c).arrAt_in w hin _).trans (A_eq2 (E5 m) c w))
  · exact B6_of_ne m c b fun w e => h ⟨w, e⟩

abbrev B7 : Dev nD → Valuation τ sig (Elt F) := fun c => StableHlo.after hostOps3 (B6 m c)

abbrev E7 : (c : Dev nD) → (b : Ref sig .tc) → Buf (Elt F) ((c : Thread nD τ).loc b) := fun c b => B7 m c b

def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev E8 : (c : Dev nD) → (b : Ref sig .tc) → Buf (Elt F) ((c : Thread nD τ).loc b) := fun c b => B8 m c b
theorem hF3 (c : Dev nD) (w : Fin cfg3.W) : (dat3 (E7 m) c).arrAt w cfg3.N = E8 m c (Pipeline.arrRef spec3 w) :=
  (B8_arr m c w).symm
theorem hrest3 (c : Dev nD) : ∀ b, b ∉ Finset.univ.image (Pipeline.arrRef spec3) → E8 m c b = E7 m c b :=
  fun b hb => B8_of_ne m c b fun w e => hb (Finset.mem_image.mpr ⟨w, Finset.mem_univ _, e⟩)

theorem B8_keep (c : Dev nD) (b : Ref sig .tc) (hb : b ≠ main_v64) : B8 m c (Proc.devRef .tc b) = B7 m c (Proc.devRef .tc b) := by
  by_cases h : ∃ w, Pipeline.arrRef spec3 w = b
  · obtain ⟨w, rfl⟩ := h
    have hin : (cfg3.win w).isOut = false := by
      revert hb; revert w; decide
    exact (B8_arr m c w).trans (((dat3 (E7 m) c).arrAt_in w hin _).trans (A_eq3 (E7 m) c w))
  · exact B8_of_ne m c b fun w e => h ⟨w, e⟩

abbrev B9 : Dev nD → Valuation τ sig (Elt F) := fun c => StableHlo.after hostOps4 (B8 m c)

abbrev E9 : (c : Dev nD) → (b : Ref sig .tc) → Buf (Elt F) ((c : Thread nD τ).loc b) := fun c b => B9 m c b

def B10 (c : Dev nD) : Valuation τ sig (Elt F) :=
  Pipeline.withArrays spec4 c (B9 m c) fun w => (dat4 (E9 m) c).arrAt w cfg4.N
theorem B10_arr (c : Dev nD) (w : Fin cfg4.W) :
    B10 m c (Proc.devRef .tc (Pipeline.arrRef spec4 w)) = (dat4 (E9 m) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m c (Proc.devRef .tc b) = B9 m c (Proc.devRef .tc b) := by
  unfold B10; exact Pipeline.withArrays_of_ne spec4 c _ _ b hb
abbrev E10 : (c : Dev nD) → (b : Ref sig .tc) → Buf (Elt F) ((c : Thread nD τ).loc b) := fun c b => B10 m c b
theorem hF4 (c : Dev nD) (w : Fin cfg4.W) : (dat4 (E9 m) c).arrAt w cfg4.N = E10 m c (Pipeline.arrRef spec4 w) :=
  (B10_arr m c w).symm
theorem hrest4 (c : Dev nD) : ∀ b, b ∉ Finset.univ.image (Pipeline.arrRef spec4) → E10 m c b = E9 m c b :=
  fun b hb => B10_of_ne m c b fun w e => hb (Finset.mem_image.mpr ⟨w, Finset.mem_univ _, e⟩)

theorem B10_keep (c : Dev nD) (b : Ref sig .tc) (hb : b ≠ main_v85) : B10 m c (Proc.devRef .tc b) = B9 m c (Proc.devRef .tc b) := by
  by_cases h : ∃ w, Pipeline.arrRef spec4 w = b
  · obtain ⟨w, rfl⟩ := h
    have hin : (cfg4.win w).isOut = false := by
      revert hb; revert w; decide
    exact (B10_arr m c w).trans (((dat4 (E9 m) c).arrAt_in w hin _).trans (A_eq4 (E9 m) c w))
  · exact B10_of_ne m c b fun w e => h ⟨w, e⟩

abbrev B11 : Dev nD → Valuation τ sig (Elt F) := fun c => StableHlo.after hostOps5 (B10 m c)

abbrev E11 : (c : Dev nD) → (b : Ref sig .tc) → Buf (Elt F) ((c : Thread nD τ).loc b) := fun c b => B11 m c b

def B12 (c : Dev nD) : Valuation τ sig (Elt F) :=
  Pipeline.withArrays spec5 c (B11 m c) fun w => (dat5 (E11 m) c).arrAt w cfg5.N
theorem B12_arr (c : Dev nD) (w : Fin cfg5.W) :
    B12 m c (Proc.devRef .tc (Pipeline.arrRef spec5 w)) = (dat5 (E11 m) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m c (Proc.devRef .tc b) = B11 m c (Proc.devRef .tc b) := by
  unfold B12; exact Pipeline.withArrays_of_ne spec5 c _ _ b hb
abbrev E12 : (c : Dev nD) → (b : Ref sig .tc) → Buf (Elt F) ((c : Thread nD τ).loc b) := fun c b => B12 m c b
theorem hF5 (c : Dev nD) (w : Fin cfg5.W) : (dat5 (E11 m) c).arrAt w cfg5.N = E12 m c (Pipeline.arrRef spec5 w) :=
  (B12_arr m c w).symm
theorem hrest5 (c : Dev nD) : ∀ b, b ∉ Finset.univ.image (Pipeline.arrRef spec5) → E12 m c b = E11 m c b :=
  fun b hb => B12_of_ne m c b fun w e => hb (Finset.mem_image.mpr ⟨w, Finset.mem_univ _, e⟩)

theorem B12_keep (c : Dev nD) (b : Ref sig .tc) (hb : b ≠ main_v93) : B12 m c (Proc.devRef .tc b) = B11 m c (Proc.devRef .tc b) := by
  by_cases h : ∃ w, Pipeline.arrRef spec5 w = b
  · obtain ⟨w, rfl⟩ := h
    have hin : (cfg5.win w).isOut = false := by
      revert hb; revert w; decide
    exact (B12_arr m c w).trans (((dat5 (E11 m) c).arrAt_in w hin _).trans (A_eq5 (E11 m) c w))
  · exact B12_of_ne m c b fun w e => h ⟨w, e⟩

abbrev args : List (Ref sig .tc) :=
  [main_arg0, main_arg1, main_arg2, main_arg3, main_arg4, main_arg5, main_arg6, main_arg7, main_arg8, main_arg9, main_arg10, main_arg11, main_arg12]

-- no host stretch writes an argument, and no region's output array is one
theorem args_unwritten : ∀ b ∈ args, (b ∉ hostOps0_W ∧ b ≠ main_v1) ∧ (b ∉ hostOps1_W ∧ b ≠ main_v22) ∧ (b ∉ hostOps2_W ∧ b ≠ main_v43) ∧ (b ∉ hostOps3_W ∧ b ≠ main_v64) ∧ (b ∉ hostOps4_W ∧ b ≠ main_v85) ∧ (b ∉ hostOps5_W ∧ b ≠ main_v93) := by decide

theorem B2_arg (c : Dev nD) (b : Ref sig .tc) (hb : b ∈ args) : B2 m c (Proc.devRef .tc b) = m ((c.tc : Thread nD τ).loc b) :=
  (B2_keep m c b (args_unwritten b hb).1.2).trans <|
  (StableHlo.after_of_writes_sub hostOps0 _ hostOps0_writes (args_unwritten b hb).1.1).trans rfl
theorem B4_arg (c : Dev nD) (b : Ref sig .tc) (hb : b ∈ args) : B4 m c (Proc.devRef .tc b) = m ((c.tc : Thread nD τ).loc b) :=
  (B4_keep m c b (args_unwritten b hb).2.1.2).trans <|
  (StableHlo.after_of_writes_sub hostOps1 _ hostOps1_writes (args_unwritten b hb).2.1.1).trans (B2_arg m c b hb)
theorem B6_arg (c : Dev nD) (b : Ref sig .tc) (hb : b ∈ args) : B6 m c (Proc.devRef .tc b) = m ((c.tc : Thread nD τ).loc b) :=
  (B6_keep m c b (args_unwritten b hb).2.2.1.2).trans <|
  (StableHlo.after_of_writes_sub hostOps2 _ hostOps2_writes (args_unwritten b hb).2.2.1.1).trans (B4_arg m c b hb)
theorem B8_arg (c : Dev nD) (b : Ref sig .tc) (hb : b ∈ args) : B8 m c (Proc.devRef .tc b) = m ((c.tc : Thread nD τ).loc b) :=
  (B8_keep m c b (args_unwritten b hb).2.2.2.1.2).trans <|
  (StableHlo.after_of_writes_sub hostOps3 _ hostOps3_writes (args_unwritten b hb).2.2.2.1.1).trans (B6_arg m c b hb)
theorem B10_arg (c : Dev nD) (b : Ref sig .tc) (hb : b ∈ args) : B10 m c (Proc.devRef .tc b) = m ((c.tc : Thread nD τ).loc b) :=
  (B10_keep m c b (args_unwritten b hb).2.2.2.2.1.2).trans <|
  (StableHlo.after_of_writes_sub hostOps4 _ hostOps4_writes (args_unwritten b hb).2.2.2.2.1.1).trans (B8_arg m c b hb)
theorem B12_arg (c : Dev nD) (b : Ref sig .tc) (hb : b ∈ args) : B12 m c (Proc.devRef .tc b) = m ((c.tc : Thread nD τ).loc b) :=
  (B12_keep m c b (args_unwritten b hb).2.2.2.2.2.2).trans <|
  (StableHlo.after_of_writes_sub hostOps5 _ hostOps5_writes (args_unwritten b hb).2.2.2.2.2.1).trans (B10_arg m c b hb)

theorem B12_result (c : Dev nD) : B12 m c (Proc.devRef .tc main_v93) = (dat5 (E11 m) c).arrAt 4 cfg5.N :=
  B12_arr m c 4

abbrev padm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
abbrev 𝒱₀ : Variants := Variants.none

abbrev L₀ : GSem nD τ sig → Finset Unit := fun _ => ∅
abbrev lv₀ : GSem nD τ sig → Unit → ℕ := fun _ _ => 0

abbrev R (c : Dev nD) : sProp 𝕄 := Pipeline.ClassA.rides (U' := UR sig nD τ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := F)) padm (pdats m) () defs₀ 𝒱₀ L₀ lv₀ 0 :=
  Pipeline.ClassA.region (U' := UR sig nD τ) (pcfgs (F := F)) padm (pdats m) defs₀ 𝒱₀ L₀ lv₀ 0 launch0.toP
    (fun c => body_obligation0 (E1 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B1 m) (B2 m) (fun _ _ => rfl) (hF0 m) (hrest0 m)

set_option backward.isDefEq.respectTransparency.types false in
def reg1 : Pipeline.RegionSeg (pcfgs (F := F)) padm (pdats m) () defs₀ 𝒱₀ L₀ lv₀ 1 :=
  Pipeline.ClassA.region (U' := UR sig nD τ) (pcfgs (F := F)) padm (pdats m) defs₀ 𝒱₀ L₀ lv₀ 1 launch1.toP
    (fun c => body_obligation1 (E3 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B3 m) (B4 m) (fun _ _ => rfl) (hF1 m) (hrest1 m)

set_option backward.isDefEq.respectTransparency.types false in
def reg2 : Pipeline.RegionSeg (pcfgs (F := F)) padm (pdats m) () defs₀ 𝒱₀ L₀ lv₀ 2 :=
  Pipeline.ClassA.region (U' := UR sig nD τ) (pcfgs (F := F)) padm (pdats m) defs₀ 𝒱₀ L₀ lv₀ 2 launch2.toP
    (fun c => body_obligation2 (E5 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B5 m) (B6 m) (fun _ _ => rfl) (hF2 m) (hrest2 m)

set_option backward.isDefEq.respectTransparency.types false in
def reg3 : Pipeline.RegionSeg (pcfgs (F := F)) padm (pdats m) () defs₀ 𝒱₀ L₀ lv₀ 3 :=
  Pipeline.ClassA.region (U' := UR sig nD τ) (pcfgs (F := F)) padm (pdats m) defs₀ 𝒱₀ L₀ lv₀ 3 launch3.toP
    (fun c => body_obligation3 (E7 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B7 m) (B8 m) (fun _ _ => rfl) (hF3 m) (hrest3 m)

set_option backward.isDefEq.respectTransparency.types false in
def reg4 : Pipeline.RegionSeg (pcfgs (F := F)) padm (pdats m) () defs₀ 𝒱₀ L₀ lv₀ 4 :=
  Pipeline.ClassA.region (U' := UR sig nD τ) (pcfgs (F := F)) padm (pdats m) defs₀ 𝒱₀ L₀ lv₀ 4 launch4.toP
    (fun c => body_obligation4 (E9 m) c) (fun _ _ => rfl) (fun _ _ => rfl) (fun _ _ => rfl)
    (fun _ => .rfl) (fun _ => .rfl)
    (fun c => by unfold Pipeline.prefHeld; rw [show (Finset.univ : Finset (Fin 0)) = ∅ from rfl, BI.bigSep_empty])
    (B9 m) (B10 m) (fun _ _ => rfl) (hF4 m) (hrest4 m)

set_option backward.isDefEq.respectTransparency.types false in
def reg5 : Pipeline.RegionSeg (pcfgs (F := F)) padm (pdats m) () defs₀ 𝒱₀ L₀ lv₀ 5 :=
  Pipeline.ClassA.region (U' := UR sig nD τ) (pcfgs (F := F)) padm (pdats m) defs₀ 𝒱₀ L₀ lv₀ 5 launch5.toP
    (fun c => body_obligation5 (E11 m) c) (fun _ _ => rfl) (fun _ _ => rfl) (fun _ _ => rfl)
    (fun c => hin5 (E11 m) c) (fun c => hout5 (E11 m) c)
    (fun c => by unfold Pipeline.prefHeld; rw [show (Finset.univ : Finset (Fin 0)) = ∅ from rfl, BI.bigSep_empty])
    (B11 m) (B12 m) (fun _ _ => rfl) (hF5 m) (hrest5 m)

abbrev allSegs : List (Pipeline.Seg (pcfgs (F := F)) padm (pdats m) () defs₀ 𝒱₀ L₀ lv₀) :=
  [ .host (hseg hostOps0 hostOps0_sub hostOps0_fresh (B0 m)), .region (reg0 m),
    .host (hseg hostOps1 hostOps1_sub hostOps1_fresh (B2 m)), .region (reg1 m),
    .host (hseg hostOps2 hostOps2_sub hostOps2_fresh (B4 m)), .region (reg2 m),
    .host (hseg hostOps3 hostOps3_sub hostOps3_fresh (B6 m)), .region (reg3 m),
    .host (hseg hostOps4 hostOps4_sub hostOps4_fresh (B8 m)), .region (reg4 m),
    .host (hseg hostOps5 hostOps5_sub hostOps5_fresh (B10 m)), .region (reg5 m) ]

theorem main_run (c : Dev nD) : main (F := F) c = Pipeline.Seg.run (allSegs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (B12 m c) ∗ ∃ r, prngReg c r)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m c b) :=
  Pipeline.θ_run_regions_kit (pcfgs (F := F)) padm (pdats m) () cellOf_inj emb₁ defs₀ 𝒱₀ L₀ lv₀ m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        change Pipeline.ClassA.between (U' := UR sig nD τ) c (B12 m c) ⊢ _
        unfold Pipeline.ClassA.between Pipeline.ClassA.rides
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (B0 m c)
        from Pipeline.unscopedBufs_held c (B0 m c)]
      unfold R Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c => h c)

theorem value_all : θ_run defs (onTc (τ := τ) (main (F := F))) ⟨m, fun _ => 0, ρ⟩ (fun r => ∀ c : Dev nD,
      r.2.mem ((c.tc : Thread nD τ).loc main_v93) = (dat5 (E11 m) c).arrAt 4 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v93 (by decide))).trans (B12_result m c),
      (h c _ (mem_uc main_arg0 (by decide))).trans (B12_arg m c main_arg0 (by decide)),
      (h c _ (mem_uc main_arg1 (by decide))).trans (B12_arg m c main_arg1 (by decide)),
      (h c _ (mem_uc main_arg2 (by decide))).trans (B12_arg m c main_arg2 (by decide)),
      (h c _ (mem_uc main_arg3 (by decide))).trans (B12_arg m c main_arg3 (by decide)),
      (h c _ (mem_uc main_arg4 (by decide))).trans (B12_arg m c main_arg4 (by decide)),
      (h c _ (mem_uc main_arg5 (by decide))).trans (B12_arg m c main_arg5 (by decide)),
      (h c _ (mem_uc main_arg6 (by decide))).trans (B12_arg m c main_arg6 (by decide)),
      (h c _ (mem_uc main_arg7 (by decide))).trans (B12_arg m c main_arg7 (by decide)),
      (h c _ (mem_uc main_arg8 (by decide))).trans (B12_arg m c main_arg8 (by decide)),
      (h c _ (mem_uc main_arg9 (by decide))).trans (B12_arg m c main_arg9 (by decide)),
      (h c _ (mem_uc main_arg10 (by decide))).trans (B12_arg m c main_arg10 (by decide)),
      (h c _ (mem_uc main_arg11 (by decide))).trans (B12_arg m c main_arg11 (by decide)),
      (h c _ (mem_uc main_arg12 (by decide))).trans (B12_arg m c main_arg12 (by decide))⟩) (run_all m ρ)

end Cert.KernelIdeal.Hand

end
-- ==== Proof.Spec.lean ====
/- The network both programs compute, entry by entry on the extended reals, every operand given by an accessor. -/
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal

def fc1 (x : Mat 65536 128) (w : Mat 128 64) (b : Fin 64 → EReal) : Mat 65536 64 :=
  fun i => (∑ k : Fin 128, x (ix2 (i 0) k) * w (ix2 k (i 1))) + b (i 1)

def hidden (xin agg : Mat 65536 64) (w1 : Fin 64 → Fin 64 → EReal) (b1 : Fin 64 → EReal) (n : Fin 65536) (k : Fin 64) : EReal :=
  max ((∑ j : Fin 64, (xin (ix2 n j) + agg (ix2 n j)) * w1 j k) + b1 k) 0

def mlp (xin agg : Mat 65536 64) (nn : Fin 65536 → EReal) (w1 : Fin 64 → Fin 64 → EReal) (b1 : Fin 64 → EReal)
    (w2 : Fin 64 → Fin 64 → EReal) (b2 : Fin 64 → EReal) : Mat 65536 64 :=
  fun i => max (((∑ k : Fin 64, hidden xin agg w1 b1 (i 0) k * w2 k (i 1)) + b2 (i 1)) * nn (i 0)) 0 + xin i

def pooled (f : Fin 5 → Fin 65536 → Fin 64 → EReal) (ind : Fin 65536 → BitVec 32) (l : Fin 5) (g : Fin 512) (h : Fin 64) : EReal :=
  ∑ n : Fin 65536, if ind n = BitVec.ofNat 32 g.val then f l n h else 0

def score (f : Fin 5 → Fin 65536 → Fin 64 → EReal) (ind : Fin 65536 → BitVec 32) (sw : Fin 5 → Fin 64 → Fin 10 → EReal)
    (sb : Fin 5 → Fin 10 → EReal) : Mat 512 10 :=
  fun i => ∑ l : Fin 5, ((∑ h : Fin 64, pooled f ind l (i 0) h * sw l h (i 1)) + sb l (i 1))

def stack5 (f0 f1 f2 f3 f4 : Mat 65536 64) : Fin 5 → Fin 65536 → Fin 64 → EReal :=
  fun l n h => (![f0, f1, f2, f3, f4] l) (ix2 n h)

end Cert.Spec

end
-- ==== Proof.KI.Value0.lean ====
/- Region 0's output array holds x · w + b. -/
import proofs.«401991_j17171279249890_1_alg».proof.Proof.KI.Region0
import proofs.«401991_j17171279249890_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem lhs_row (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_contr (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_contr (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_col (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

theorem pay_apply (x0 : Vec Ideal S4096x128 .f32) (x1 : Vec Ideal S128x64 .f32) (x2 : Vec Ideal S1x64 .f32) (p : Fin 4096) (q : Fin 64) :
    k0_pay1 x0 x1 x2 (ix2 p q) = (∑ k : Fin 128, x0 (ix2 p k) * x1 (ix2 k q)) + x2 (ix2 (0 : Fin 1) q) := by
  unfold k0_pay1
  rw [addf_apply, broadcastTo_1b_ab_apply, shapeCast_self]
  congr 1
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p q) ((contrEquiv1 dot_S4096x128_S128x64_S4096x64_1_0_0_1_n_n 128 rfl rfl).symm k) = ix2 p k := funext fun a => Fin.ext (by
    match a with
    | ⟨0, _⟩ => exact lhs_row _ _
    | ⟨1, _⟩ => exact (lhs_contr _ _).trans hk)
  have er : dot_S4096x128_S128x64_S4096x64_1_0_0_1_n_n.rhsIdx (ix2 p q) ((contrEquiv1 dot_S4096x128_S128x64_S4096x64_1_0_0_1_n_n 128 rfl rfl).symm k) = ix2 k q := funext fun a => Fin.ext (by
    match a with
    | ⟨0, _⟩ => exact (rhs_contr _ _).trans hk
    | ⟨1, _⟩ => exact rhs_col _ _)
  rw [truncf_apply, truncf_apply, el, er]

theorem zeroOffsets : (![0, 0] : Fin 2 → Nat) = fun _ => 0 := funext fun a => by fin_cases a <;> rfl

theorem out0_apply (x0 : Vec Ideal S4096x128 .f32) (x1 : Vec Ideal S128x64 .f32) (x2 : Vec Ideal S1x64 .f32) (p : Fin 4096) (q : Fin 64) :
    out0 x0 x1 x2 (ix2 p q) = (∑ k : Fin 128, x0 (ix2 p k) * x1 (ix2 k q)) + x2 (ix2 (0 : Fin 1) q) := by
  unfold out0
  rw [View.canon_unit_zero zeroOffsets]
  simp only [View.ld_unit_zero (S := S4096x128) zeroOffsets, View.ld_unit_zero (S := S128x64) zeroOffsets, View.ld_unit_zero (S := S1x64) zeroOffsets]
  exact pay_apply x0 x1 x2 p q

theorem out0_eq_fc1 (x0 : Vec Ideal S4096x128 .f32) (x1 : Vec Ideal S128x64 .f32) (x2 : Vec Ideal S1x64 .f32)
    (X : Spec.Mat 65536 128) (W : Spec.Mat 128 64) (B : Spec.Mat 1 64) (j : S4096x64.Idx) (i : S65536x64.Idx)
    (hx : ∀ k : Fin 128, x0 (ix2 (j 0) k) = X (ix2 (i 0) k)) (hw : x1 = W) (hb : x2 = B) (hcol : (i 1).val = (j 1).val) :
    out0 x0 x1 x2 j = Spec.fc1 X W (fun k => B (ix2 (0 : Fin 1) k)) i := by
  obtain ⟨p, q, rfl⟩ : ∃ (p : Fin 4096) (q : Fin 64), j = ix2 p q := ⟨j 0, j 1, eq_ix2 j⟩
  subst hw hb
  have hq : i 1 = q := Fin.ext hcol
  rw [out0_apply]
  show _ = (∑ k : Fin 128, X (ix2 (i 0) k) * x1 (ix2 k (i 1))) + x2 (ix2 (0 : Fin 1) (i 1))
  rw [hq]
  exact congrArg (· + x2 (ix2 (0 : Fin 1) q)) (Finset.sum_congr rfl fun k _ => congrArg (· * x1 (ix2 k q)) (hx k))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

theorem flushed0 (c : Dev nD) (t : Fin cfg0.N) :
    (dat0 (F := Ideal) V c).flushed 3 t = ((cfg0.win 3).blk t).view.read (Elt Ideal)
      (Spec.fc1 (V c main_arg0) (V c main_arg2) (fun k => V c main_v0 (ix2 (0 : Fin 1) k))) := by
  show (cfg0.win 3).cut (grid0.coords t) ((dat0 (F := Ideal) V c).after 3 t) = _
  rw [after0_3]
  obtain ⟨e00, e01, e10, e11, e20, e21, e30, e31⟩ := idx_facts t
  funext j
  show out0 (iblk0 V c 0 t) (iblk0 V c 1 t) (iblk0 V c 2 t) j
    = Spec.fc1 (V c main_arg0) (V c main_arg2) (fun k => V c main_v0 (ix2 (0 : Fin 1) k)) (((cfg0.win 3).blk t).view.emb j)
  refine out0_eq_fc1 _ _ _ (V c main_arg0) (V c main_arg2) (V c main_v0) j _ (fun k => ?_) ?_ ?_ ?_
  ·
    show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * k.val = k.val; omega
  ·
    funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  ·
    funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show win0_3.index t (1 : Fin 2) * 64 + 1 * (j 1).val = (j 1).val; omega

theorem mem_blk3 (t : Fin cfg0.N) (i : S65536x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v1).slice (win0_3.rect t)).set ↔ _
  rw [View.set_slice_whole, Rect.mem_set_unit]
  exact Iff.rfl

theorem cover3 (i : S65536x64.Idx) : ∃ t : Fin cfg0.N, (cfg0.win 3).flush t = true ∧ i ∈ ((cfg0.win 3).blk t).view.set := by
  have hi0 : (i 0).val < 65536 := (i 0).isLt
  have hi1 : (i 1).val < 64 := (i 1).isLt
  have hN : cfg0.N = 16 := N_0
  obtain ⟨t, ht⟩ : ∃ t : Fin cfg0.N, t.val = (i 0).val / 4096 := ⟨⟨(i 0).val / 4096, by rw [hN]; omega⟩, rfl⟩
  obtain ⟨-, -, -, -, -, -, e30, e31⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

theorem val0 (c : Dev nD) : (dat0 (F := Ideal) V c).arrAt 3 cfg0.N
    = Spec.fc1 (V c main_arg0) (V c main_arg2) (fun k => V c main_v0 (ix2 (0 : Fin 1) k)) :=
  (dat0 (F := Ideal) V c).arrAt_eq_of_cover 3 _ (fun t _ => flushed0 V c t) cover3

end

end Cert.KernelIdeal.HandValue

end
-- ==== Proof.KI.LayerValue.lean ====
/- The layer kernel's payload at an entry, on the extended reals: two matrix products with bias and rectifier, the scaling by the norm column, the residual sum. -/
import proofs.«401991_j17171279249890_1_alg».proof.Proof.Gen.KernelIdeal.Skeleton
import proofs.«401991_j17171279249890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx
open scoped BigOperators

theorem lhsRow (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl

theorem lhsCon (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

theorem rhsCon (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

theorem rhsCol (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

theorem matmulAt {φa φb : FTy} (a : FVec Ideal S4096x64 φa) (b : FVec Ideal S64x64 φb) (p : Fin 4096) (q : Fin 64) :
    matmul dot_S4096x64_S64x64_S4096x64_1_0_0_1_n_n none a b (constant (F := Ideal) S4096x64 .f32 0x00000000#32) (ix2 p q)
      = ∑ k : Fin 64, a (ix2 p k) * b (ix2 k q) := by
  show FloatOps.matmul dot_S4096x64_S64x64_S4096x64_1_0_0_1_n_n none a b (constant (F := Ideal) S4096x64 .f32 0x00000000#32) (ix2 p q) = _
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact lhsRow _ _
    | ⟨1, _⟩ => exact (lhsCon _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (rhsCon _ _).trans hk
    | ⟨1, _⟩ => exact rhsCol _ _)
  rw [el, er]

theorem bcastRow {α : Type} (v : S1x64.Idx → α) (p : Fin 4096) (q : Fin 64) :
    broadcastTo S4096x64 v broadcasts_S1x64_S4096x64 (ix2 p q) = v (ix2 0 q) :=
  broadcastTo_apply v broadcasts_S1x64_S4096x64 (ix2 p q) (ix2 0 q) fun a => by
    match a with
    | ⟨0, _⟩ => rfl
    | ⟨1, _⟩ => rfl

theorem bcastCol {α : Type} (v : S4096x1.Idx → α) (p : Fin 4096) (q : Fin 64) :
    broadcastTo S4096x64 v broadcasts_S4096x1_S4096x64 (ix2 p q) = v (ix2 p 0) :=
  broadcastTo_apply v broadcasts_S4096x1_S4096x64 (ix2 p q) (ix2 p 0) fun a => by
    match a with
    | ⟨0, _⟩ => rfl
    | ⟨1, _⟩ => rfl

theorem payAt (x agg : Vec Ideal S4096x64 .f32) (wa : Vec Ideal S64x64 .f32) (ba : Vec Ideal S1x64 .f32)
    (wb : Vec Ideal S64x64 .f32) (bb : Vec Ideal S1x64 .f32) (nn : Vec Ideal S4096x1 .f32) (p : Fin 4096) (q : Fin 64) :
    k1_pay1 (F := Ideal) x agg wa ba wb bb nn (ix2 p q)
      = max (((∑ k : Fin 64, max ((∑ j : Fin 64, (x (ix2 p j) + agg (ix2 p j)) * wa (ix2 j k)) + ba (ix2 0 k)) 0 * wb (ix2 k q))
          + bb (ix2 0 q)) * nn (ix2 p 0)) 0 + x (ix2 p q) := by
  have hzero : (FloatOps.ofBits (F := Ideal) .f32 0x00000000#32) = (0 : EReal) := Ideal.ofBits_zero_f32
  unfold k1_pay1
  simp only [shapeCast_self, addf_apply, maximumf_apply, mulf_apply, truncf_apply, matmulAt, bcastRow, bcastCol, broadcast_apply, hzero]

theorem entryEq (X AGG : Cert.Spec.Mat 65536 64) (NN : S65536x1.Idx → EReal) (WA WB : S64x64.Idx → EReal) (BA BB : S1x64.Idx → EReal)
    (x agg : Vec Ideal S4096x64 .f32) (wa : Vec Ideal S64x64 .f32) (ba : Vec Ideal S1x64 .f32)
    (wb : Vec Ideal S64x64 .f32) (bb : Vec Ideal S1x64 .f32) (nn : Vec Ideal S4096x1 .f32)
    (P : Fin 65536) (p : Fin 4096) (q : Fin 64)
    (hx : ∀ j : Fin 64, x (ix2 p j) = X (ix2 P j)) (hagg : ∀ j : Fin 64, agg (ix2 p j) = AGG (ix2 P j))
    (hnn : nn (ix2 p 0) = NN (ix2 P 0)) (hwa : wa = WA) (hba : ba = BA) (hwb : wb = WB) (hbb : bb = BB) :
    k1_pay1 (F := Ideal) x agg wa ba wb bb nn (ix2 p q)
      = Cert.Spec.mlp X AGG (fun n => NN (ix2 n 0)) (fun j k => WA (ix2 j k)) (fun k => BA (ix2 0 k))
          (fun j k => WB (ix2 j k)) (fun k => BB (ix2 0 k)) (ix2 P q) := by
  rw [payAt]
  subst hwa hba hwb hbb
  unfold Cert.Spec.mlp Cert.Spec.hidden
  simp only [hx, hagg, hnn]

theorem zeroOff : (![0, 0] : Fin 2 → Nat) = fun _ => 0 := funext fun a => by fin_cases a <;> rfl

end Cert.KernelIdeal.HandValue

end
-- ==== Proof.KI.Value1.lean ====
/- A layer region's output array holds the specification's layer of the region's input arrays. -/
import proofs.«401991_j17171279249890_1_alg».proof.Proof.KI.Region1
import proofs.«401991_j17171279249890_1_alg».proof.Proof.KI.LayerValue
import proofs.«401991_j17171279249890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem idxFacts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b))

set_option maxHeartbeats 4000000 in
theorem flushedEq1 (c : Dev nD) (t : Fin cfg1.N) :
    (dat1 (F := Ideal) V c).flushed 7 t = ((cfg1.win 7).blk t).view.read (Elt Ideal) (Cert.Spec.mlp (V c main_v1) (V c main_v11) (fun n => V c main_arg1 (ix2 n 0)) (fun j k => V c main_v19 (ix2 j k)) (fun k => V c main_v14 (ix2 0 k)) (fun j k => V c main_v21 (ix2 j k)) (fun k => V c main_v17 (ix2 0 k))) := by
  show (cfg1.win 7).cut (grid1.coords t) ((dat1 V c).after 7 t) = _
  rw [after1_7]
  unfold layerOut
  rw [View.canon_unit_zero zeroOff]
  simp only [View.ld_unit_zero (S := S4096x64) zeroOff, View.ld_unit_zero (S := S4096x1) zeroOff,
    View.ld_unit_zero (S := S64x64) zeroOff, View.ld_unit_zero (S := S1x64) zeroOff]
  obtain ⟨eAr, eAc, eBr, eBc, eCr, eCc, eDr, eDc, eEr, eEc, eFr, eFc, eGr, eGc, eHr, eHc⟩ := idxFacts1 t
  have hN : t.val < 16 := lt_of_lt_of_eq t.isLt (show cfg1.N = 16 from N_1)
  funext y
  obtain ⟨p, q, rfl⟩ : ∃ (p : Fin 4096) (q : Fin 64), y = ix2 p q := ⟨y 0, y 1, eq_ix2 y⟩
  have hP : t.val * 4096 + p.val < 65536 := by have := p.isLt; omega
  show k1_pay1 (F := Ideal) (iblk1 V c 0 t) (iblk1 V c 1 t) (iblk1 V c 3 t) (iblk1 V c 4 t) (iblk1 V c 5 t) (iblk1 V c 6 t) (iblk1 V c 2 t) (ix2 p q)
    = Cert.Spec.mlp (V c main_v1) (V c main_v11) (fun n => V c main_arg1 (ix2 n 0)) (fun j k => V c main_v19 (ix2 j k)) (fun k => V c main_v14 (ix2 0 k)) (fun j k => V c main_v21 (ix2 j k)) (fun k => V c main_v17 (ix2 0 k)) (((cfg1.win 7).blk t).view.emb (ix2 p q))
  have hE : ((cfg1.win 7).blk t).view.emb (ix2 p q) = ix2 (⟨t.val * 4096 + p.val, hP⟩ : Fin 65536) q := by
    funext a; apply Fin.ext
    match a with
    | ⟨0, _⟩ => show win1_7.index t (0 : Fin 2) * 4096 + 1 * p.val = t.val * 4096 + p.val; rw [eHr]; omega
    | ⟨1, _⟩ => show win1_7.index t (1 : Fin 2) * 64 + 1 * q.val = q.val; rw [eHc]; omega
  rw [hE]
  refine entryEq (V c main_v1) (V c main_v11) (V c main_arg1) (V c main_v19) (V c main_v21) (V c main_v14) (V c main_v17)
    (iblk1 V c 0 t) (iblk1 V c 1 t) (iblk1 V c 3 t) (iblk1 V c 4 t) (iblk1 V c 5 t) (iblk1 V c 6 t) (iblk1 V c 2 t)
    ⟨t.val * 4096 + p.val, hP⟩ p q ?_ ?_ ?_ ?_ ?_ ?_ ?_
  · intro j
    show V c main_v1 (((cfg1.win 0).blk t).view.emb (ix2 p j)) = V c main_v1 (ix2 _ j)
    refine congrArg _ (funext fun a => Fin.ext ?_)
    match a with
    | ⟨0, _⟩ => show win1_0.index t (0 : Fin 2) * 4096 + 1 * p.val = t.val * 4096 + p.val; rw [eAr]; omega
    | ⟨1, _⟩ => show win1_0.index t (1 : Fin 2) * 64 + 1 * j.val = j.val; rw [eAc]; omega
  · intro j
    show V c main_v11 (((cfg1.win 1).blk t).view.emb (ix2 p j)) = V c main_v11 (ix2 _ j)
    refine congrArg _ (funext fun a => Fin.ext ?_)
    match a with
    | ⟨0, _⟩ => show win1_1.index t (0 : Fin 2) * 4096 + 1 * p.val = t.val * 4096 + p.val; rw [eBr]; omega
    | ⟨1, _⟩ => show win1_1.index t (1 : Fin 2) * 64 + 1 * j.val = j.val; rw [eBc]; omega
  · show V c main_arg1 (((cfg1.win 2).blk t).view.emb (ix2 p 0)) = V c main_arg1 (ix2 _ 0)
    refine congrArg _ (funext fun a => Fin.ext ?_)
    match a with
    | ⟨0, _⟩ => show win1_2.index t (0 : Fin 2) * 4096 + 1 * p.val = t.val * 4096 + p.val; rw [eCr]; omega
    | ⟨1, _⟩ => show win1_2.index t (1 : Fin 2) * 1 + 1 * 0 = 0; rw [eCc]
  · funext y
    show V c main_v19 (((cfg1.win 3).blk t).view.emb y) = V c main_v19 y
    refine congrArg _ (funext fun a => Fin.ext ?_)
    match a with
    | ⟨0, _⟩ => show win1_3.index t (0 : Fin 2) * 64 + 1 * (y 0).val = (y 0).val; rw [eDr]; omega
    | ⟨1, _⟩ => show win1_3.index t (1 : Fin 2) * 64 + 1 * (y 1).val = (y 1).val; rw [eDc]; omega
  · funext y
    show V c main_v14 (((cfg1.win 4).blk t).view.emb y) = V c main_v14 y
    refine congrArg _ (funext fun a => Fin.ext ?_)
    match a with
    | ⟨0, _⟩ => show win1_4.index t (0 : Fin 2) * 1 + 1 * (y 0).val = (y 0).val; rw [eEr]; omega
    | ⟨1, _⟩ => show win1_4.index t (1 : Fin 2) * 64 + 1 * (y 1).val = (y 1).val; rw [eEc]; omega
  · funext y
    show V c main_v21 (((cfg1.win 5).blk t).view.emb y) = V c main_v21 y
    refine congrArg _ (funext fun a => Fin.ext ?_)
    match a with
    | ⟨0, _⟩ => show win1_5.index t (0 : Fin 2) * 64 + 1 * (y 0).val = (y 0).val; rw [eFr]; omega
    | ⟨1, _⟩ => show win1_5.index t (1 : Fin 2) * 64 + 1 * (y 1).val = (y 1).val; rw [eFc]; omega
  · funext y
    show V c main_v17 (((cfg1.win 6).blk t).view.emb y) = V c main_v17 y
    refine congrArg _ (funext fun a => Fin.ext ?_)
    match a with
    | ⟨0, _⟩ => show win1_6.index t (0 : Fin 2) * 1 + 1 * (y 0).val = (y 0).val; rw [eGr]; omega
    | ⟨1, _⟩ => show win1_6.index t (1 : Fin 2) * 64 + 1 * (y 1).val = (y 1).val; rw [eGc]; omega

end Blocks

theorem memBlk1 (t : Fin cfg1.N) (i : S65536x64.Idx) :
    i ∈ ((cfg1.win 7).blk t).view.set ↔ ∀ a : Fin 2, win1_7.index t a * S4096x64.size a ≤ (i a).val ∧ (i a).val < win1_7.index t a * S4096x64.size a + S4096x64.size a := by
  show i ∈ ((View.whole (Pipeline.arrRef spec1 7)).slice (win1_7.rect t)).set ↔ _
  rw [View.set_slice_whole, Rect.mem_set_unit]
  exact Iff.rfl

theorem covered1 (i : S65536x64.Idx) :
    ∃ t : Fin cfg1.N, (cfg1.win 7).flush t = true ∧ i ∈ ((cfg1.win 7).blk t).view.set := by
  have hrow : (i 0).val < 65536 := (i 0).isLt
  have hcol : (i 1).val < 64 := (i 1).isLt
  obtain ⟨t, ht⟩ : ∃ t : Fin cfg1.N, t.val = (i 0).val / 4096 :=
    ⟨⟨(i 0).val / 4096, by rw [show cfg1.N = 16 from N_1]; omega⟩, rfl⟩
  obtain ⟨-, -, -, -, -, -, -, -, -, -, -, -, -, -, eHr, eHc⟩ := idxFacts1 t
  refine ⟨t, flush1_7 t, ?_⟩
  rw [memBlk1]
  intro a
  match a with
  | ⟨0, _⟩ => show win1_7.index t (0 : Fin 2) * 4096 ≤ (i 0).val ∧ (i 0).val < win1_7.index t (0 : Fin 2) * 4096 + 4096; rw [eHr]; omega
  | ⟨1, _⟩ => show win1_7.index t (1 : Fin 2) * 64 ≤ (i 1).val ∧ (i 1).val < win1_7.index t (1 : Fin 2) * 64 + 64; rw [eHc]; omega

section Final
variable (V : (c : Dev nD) → (b : Ref sig .tc) → Buf (Elt Ideal) ((c : Thread nD τ).loc b))

theorem val1 (c : Dev nD) :
    (Cert.KernelIdeal.Hand.dat1 (F := Ideal) V c).arrAt 7 cfg1.N = Cert.Spec.mlp (V c main_v1) (V c main_v11) (fun n => V c main_arg1 (ix2 n 0)) (fun j k => V c main_v19 (ix2 j k)) (fun k => V c main_v14 (ix2 0 k)) (fun j k => V c main_v21 (ix2 j k)) (fun k => V c main_v17 (ix2 0 k)) :=
  (dat1 (F := Ideal) V c).arrAt_eq_of_cover 7 (Cert.Spec.mlp (V c main_v1) (V c main_v11) (fun n => V c main_arg1 (ix2 n 0)) (fun j k => V c main_v19 (ix2 j k)) (fun k => V c main_v14 (ix2 0 k)) (fun j k => V c main_v21 (ix2 j k)) (fun k => V c main_v17 (ix2 0 k))) (fun t _ => flushedEq1 V c t) covered1

end Final

end Cert.KernelIdeal.HandValue
-- ==== Proof.KI.Value2.lean ====
/- A layer region's output array holds the specification's layer of the region's input arrays. -/
import proofs.«401991_j17171279249890_1_alg».proof.Proof.KI.Region2
import proofs.«401991_j17171279249890_1_alg».proof.Proof.KI.LayerValue
import proofs.«401991_j17171279249890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section Blocks
variable (V : (c : Dev nD) → (b : Ref sig .tc) → Buf (Elt Ideal) ((c : Thread nD τ).loc b))

set_option maxHeartbeats 4000000 in
theorem flushedEq2 (c : Dev nD) (t : Fin cfg2.N) :
    (dat2 (F := Ideal) V c).flushed 7 t = ((cfg2.win 7).blk t).view.read (Elt Ideal) (Cert.Spec.mlp (V c main_v22) (V c main_v32) (fun n => V c main_arg1 (ix2 n 0)) (fun j k => V c main_v40 (ix2 j k)) (fun k => V c main_v35 (ix2 0 k)) (fun j k => V c main_v42 (ix2 j k)) (fun k => V c main_v38 (ix2 0 k))) := by
  show (cfg2.win 7).cut (grid2.coords t) ((dat2 V c).after 7 t) = _
  rw [after2_7]
  unfold layerOut
  rw [View.canon_unit_zero zeroOff]
  simp only [View.ld_unit_zero (S := S4096x64) zeroOff, View.ld_unit_zero (S := S4096x1) zeroOff,
    View.ld_unit_zero (S := S64x64) zeroOff, View.ld_unit_zero (S := S1x64) zeroOff]
  obtain ⟨eAr, eAc, eBr, eBc, eCr, eCc, eDr, eDc, eEr, eEc, eFr, eFc, eGr, eGc, eHr, eHc⟩ := idxFacts2 t
  have hN : t.val < 16 := lt_of_lt_of_eq t.isLt (show cfg2.N = 16 from N_2)
  funext y
  obtain ⟨p, q, rfl⟩ : ∃ (p : Fin 4096) (q : Fin 64), y = ix2 p q := ⟨y 0, y 1, eq_ix2 y⟩
  have hP : t.val * 4096 + p.val < 65536 := by have := p.isLt; omega
  show k1_pay1 (F := Ideal) (iblk2 V c 0 t) (iblk2 V c 1 t) (iblk2 V c 3 t) (iblk2 V c 4 t) (iblk2 V c 5 t) (iblk2 V c 6 t) (iblk2 V c 2 t) (ix2 p q)
    = Cert.Spec.mlp (V c main_v22) (V c main_v32) (fun n => V c main_arg1 (ix2 n 0)) (fun j k => V c main_v40 (ix2 j k)) (fun k => V c main_v35 (ix2 0 k)) (fun j k => V c main_v42 (ix2 j k)) (fun k => V c main_v38 (ix2 0 k)) (((cfg2.win 7).blk t).view.emb (ix2 p q))
  have hE : ((cfg2.win 7).blk t).view.emb (ix2 p q) = ix2 (⟨t.val * 4096 + p.val, hP⟩ : Fin 65536) q := by
    funext a; apply Fin.ext
    match a with
    | ⟨0, _⟩ => show win2_7.index t (0 : Fin 2) * 4096 + 1 * p.val = t.val * 4096 + p.val; rw [eHr]; omega
    | ⟨1, _⟩ => show win2_7.index t (1 : Fin 2) * 64 + 1 * q.val = q.val; rw [eHc]; omega
  rw [hE]
  refine entryEq (V c main_v22) (V c main_v32) (V c main_arg1) (V c main_v40) (V c main_v42) (V c main_v35) (V c main_v38)
    (iblk2 V c 0 t) (iblk2 V c 1 t) (iblk2 V c 3 t) (iblk2 V c 4 t) (iblk2 V c 5 t) (iblk2 V c 6 t) (iblk2 V c 2 t)
    ⟨t.val * 4096 + p.val, hP⟩ p q ?_ ?_ ?_ ?_ ?_ ?_ ?_
  · intro j
    show V c main_v22 (((cfg2.win 0).blk t).view.emb (ix2 p j)) = V c main_v22 (ix2 _ j)
    refine congrArg _ (funext fun a => Fin.ext ?_)
    match a with
    | ⟨0, _⟩ => show win2_0.index t (0 : Fin 2) * 4096 + 1 * p.val = t.val * 4096 + p.val; rw [eAr]; omega
    | ⟨1, _⟩ => show win2_0.index t (1 : Fin 2) * 64 + 1 * j.val = j.val; rw [eAc]; omega
  · intro j
    show V c main_v32 (((cfg2.win 1).blk t).view.emb (ix2 p j)) = V c main_v32 (ix2 _ j)
    refine congrArg _ (funext fun a => Fin.ext ?_)
    match a with
    | ⟨0, _⟩ => show win2_1.index t (0 : Fin 2) * 4096 + 1 * p.val = t.val * 4096 + p.val; rw [eBr]; omega
    | ⟨1, _⟩ => show win2_1.index t (1 : Fin 2) * 64 + 1 * j.val = j.val; rw [eBc]; omega
  · show V c main_arg1 (((cfg2.win 2).blk t).view.emb (ix2 p 0)) = V c main_arg1 (ix2 _ 0)
    refine congrArg _ (funext fun a => Fin.ext ?_)
    match a with
    | ⟨0, _⟩ => show win2_2.index t (0 : Fin 2) * 4096 + 1 * p.val = t.val * 4096 + p.val; rw [eCr]; omega
    | ⟨1, _⟩ => show win2_2.index t (1 : Fin 2) * 1 + 1 * 0 = 0; rw [eCc]
  · funext y
    show V c main_v40 (((cfg2.win 3).blk t).view.emb y) = V c main_v40 y
    refine congrArg _ (funext fun a => Fin.ext ?_)
    match a with
    | ⟨0, _⟩ => show win2_3.index t (0 : Fin 2) * 64 + 1 * (y 0).val = (y 0).val; rw [eDr]; omega
    | ⟨1, _⟩ => show win2_3.index t (1 : Fin 2) * 64 + 1 * (y 1).val = (y 1).val; rw [eDc]; omega
  · funext y
    show V c main_v35 (((cfg2.win 4).blk t).view.emb y) = V c main_v35 y
    refine congrArg _ (funext fun a => Fin.ext ?_)
    match a with
    | ⟨0, _⟩ => show win2_4.index t (0 : Fin 2) * 1 + 1 * (y 0).val = (y 0).val; rw [eEr]; omega
    | ⟨1, _⟩ => show win2_4.index t (1 : Fin 2) * 64 + 1 * (y 1).val = (y 1).val; rw [eEc]; omega
  · funext y
    show V c main_v42 (((cfg2.win 5).blk t).view.emb y) = V c main_v42 y
    refine congrArg _ (funext fun a => Fin.ext ?_)
    match a with
    | ⟨0, _⟩ => show win2_5.index t (0 : Fin 2) * 64 + 1 * (y 0).val = (y 0).val; rw [eFr]; omega
    | ⟨1, _⟩ => show win2_5.index t (1 : Fin 2) * 64 + 1 * (y 1).val = (y 1).val; rw [eFc]; omega
  · funext y
    show V c main_v38 (((cfg2.win 6).blk t).view.emb y) = V c main_v38 y
    refine congrArg _ (funext fun a => Fin.ext ?_)
    match a with
    | ⟨0, _⟩ => show win2_6.index t (0 : Fin 2) * 1 + 1 * (y 0).val = (y 0).val; rw [eGr]; omega
    | ⟨1, _⟩ => show win2_6.index t (1 : Fin 2) * 64 + 1 * (y 1).val = (y 1).val; rw [eGc]; omega

end Blocks

theorem memBlk2 (t : Fin cfg2.N) (i : S65536x64.Idx) :
    i ∈ ((cfg2.win 7).blk t).view.set ↔ ∀ a : Fin 2, win2_7.index t a * S4096x64.size a ≤ (i a).val ∧ (i a).val < win2_7.index t a * S4096x64.size a + S4096x64.size a := by
  show i ∈ ((View.whole (Pipeline.arrRef spec2 7)).slice (win2_7.rect t)).set ↔ _
  rw [View.set_slice_whole, Rect.mem_set_unit]
  exact Iff.rfl

theorem covered2 (i : S65536x64.Idx) :
    ∃ t : Fin cfg2.N, (cfg2.win 7).flush t = true ∧ i ∈ ((cfg2.win 7).blk t).view.set := by
  have hrow : (i 0).val < 65536 := (i 0).isLt
  have hcol : (i 1).val < 64 := (i 1).isLt
  obtain ⟨t, ht⟩ : ∃ t : Fin cfg2.N, t.val = (i 0).val / 4096 :=
    ⟨⟨(i 0).val / 4096, by rw [show cfg2.N = 16 from N_2]; omega⟩, rfl⟩
  obtain ⟨-, -, -, -, -, -, -, -, -, -, -, -, -, -, eHr, eHc⟩ := idxFacts2 t
  refine ⟨t, flush2_7 t, ?_⟩
  rw [memBlk2]
  intro a
  match a with
  | ⟨0, _⟩ => show win2_7.index t (0 : Fin 2) * 4096 ≤ (i 0).val ∧ (i 0).val < win2_7.index t (0 : Fin 2) * 4096 + 4096; rw [eHr]; omega
  | ⟨1, _⟩ => show win2_7.index t (1 : Fin 2) * 64 ≤ (i 1).val ∧ (i 1).val < win2_7.index t (1 : Fin 2) * 64 + 64; rw [eHc]; omega

section Final
variable (V : (c : Dev nD) → (b : Ref sig .tc) → Buf (Elt Ideal) ((c : Thread nD τ).loc b))

theorem val2 (c : Dev nD) :
    (Cert.KernelIdeal.Hand.dat2 (F := Ideal) V c).arrAt 7 cfg2.N = Cert.Spec.mlp (V c main_v22) (V c main_v32) (fun n => V c main_arg1 (ix2 n 0)) (fun j k => V c main_v40 (ix2 j k)) (fun k => V c main_v35 (ix2 0 k)) (fun j k => V c main_v42 (ix2 j k)) (fun k => V c main_v38 (ix2 0 k)) :=
  (dat2 (F := Ideal) V c).arrAt_eq_of_cover 7 (Cert.Spec.mlp (V c main_v22) (V c main_v32) (fun n => V c main_arg1 (ix2 n 0)) (fun j k => V c main_v40 (ix2 j k)) (fun k => V c main_v35 (ix2 0 k)) (fun j k => V c main_v42 (ix2 j k)) (fun k => V c main_v38 (ix2 0 k))) (fun t _ => flushedEq2 V c t) covered2

end Final

end Cert.KernelIdeal.HandValue
-- ==== Proof.KI.Value3.lean ====
/- A layer region's output array holds the specification's layer of the region's input arrays. -/
import proofs.«401991_j17171279249890_1_alg».proof.Proof.KI.Region3
import proofs.«401991_j17171279249890_1_alg».proof.Proof.KI.LayerValue
import proofs.«401991_j17171279249890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem idxFacts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

section Blocks
variable (V : (c : Dev nD) → (b : Ref sig .tc) → Buf (Elt Ideal) ((c : Thread nD τ).loc b))

set_option maxHeartbeats 4000000 in
theorem flushedEq3 (c : Dev nD) (t : Fin cfg3.N) :
    (dat3 (F := Ideal) V c).flushed 7 t = ((cfg3.win 7).blk t).view.read (Elt Ideal) (Cert.Spec.mlp (V c main_v43) (V c main_v53) (fun n => V c main_arg1 (ix2 n 0)) (fun j k => V c main_v61 (ix2 j k)) (fun k => V c main_v56 (ix2 0 k)) (fun j k => V c main_v63 (ix2 j k)) (fun k => V c main_v59 (ix2 0 k))) := by
  show (cfg3.win 7).cut (grid3.coords t) ((dat3 V c).after 7 t) = _
  rw [after3_7]
  unfold layerOut
  rw [View.canon_unit_zero zeroOff]
  simp only [View.ld_unit_zero (S := S4096x64) zeroOff, View.ld_unit_zero (S := S4096x1) zeroOff,
    View.ld_unit_zero (S := S64x64) zeroOff, View.ld_unit_zero (S := S1x64) zeroOff]
  obtain ⟨eAr, eAc, eBr, eBc, eCr, eCc, eDr, eDc, eEr, eEc, eFr, eFc, eGr, eGc, eHr, eHc⟩ := idxFacts3 t
  have hN : t.val < 16 := lt_of_lt_of_eq t.isLt (show cfg3.N = 16 from N_3)
  funext y
  obtain ⟨p, q, rfl⟩ : ∃ (p : Fin 4096) (q : Fin 64), y = ix2 p q := ⟨y 0, y 1, eq_ix2 y⟩
  have hP : t.val * 4096 + p.val < 65536 := by have := p.isLt; omega
  show k1_pay1 (F := Ideal) (iblk3 V c 0 t) (iblk3 V c 1 t) (iblk3 V c 3 t) (iblk3 V c 4 t) (iblk3 V c 5 t) (iblk3 V c 6 t) (iblk3 V c 2 t) (ix2 p q)
    = Cert.Spec.mlp (V c main_v43) (V c main_v53) (fun n => V c main_arg1 (ix2 n 0)) (fun j k => V c main_v61 (ix2 j k)) (fun k => V c main_v56 (ix2 0 k)) (fun j k => V c main_v63 (ix2 j k)) (fun k => V c main_v59 (ix2 0 k)) (((cfg3.win 7).blk t).view.emb (ix2 p q))
  have hE : ((cfg3.win 7).blk t).view.emb (ix2 p q) = ix2 (⟨t.val * 4096 + p.val, hP⟩ : Fin 65536) q := by
    funext a; apply Fin.ext
    match a with
    | ⟨0, _⟩ => show win3_7.index t (0 : Fin 2) * 4096 + 1 * p.val = t.val * 4096 + p.val; rw [eHr]; omega
    | ⟨1, _⟩ => show win3_7.index t (1 : Fin 2) * 64 + 1 * q.val = q.val; rw [eHc]; omega
  rw [hE]
  refine entryEq (V c main_v43) (V c main_v53) (V c main_arg1) (V c main_v61) (V c main_v63) (V c main_v56) (V c main_v59)
    (iblk3 V c 0 t) (iblk3 V c 1 t) (iblk3 V c 3 t) (iblk3 V c 4 t) (iblk3 V c 5 t) (iblk3 V c 6 t) (iblk3 V c 2 t)
    ⟨t.val * 4096 + p.val, hP⟩ p q ?_ ?_ ?_ ?_ ?_ ?_ ?_
  · intro j
    show V c main_v43 (((cfg3.win 0).blk t).view.emb (ix2 p j)) = V c main_v43 (ix2 _ j)
    refine congrArg _ (funext fun a => Fin.ext ?_)
    match a with
    | ⟨0, _⟩ => show win3_0.index t (0 : Fin 2) * 4096 + 1 * p.val = t.val * 4096 + p.val; rw [eAr]; omega
    | ⟨1, _⟩ => show win3_0.index t (1 : Fin 2) * 64 + 1 * j.val = j.val; rw [eAc]; omega
  · intro j
    show V c main_v53 (((cfg3.win 1).blk t).view.emb (ix2 p j)) = V c main_v53 (ix2 _ j)
    refine congrArg _ (funext fun a => Fin.ext ?_)
    match a with
    | ⟨0, _⟩ => show win3_1.index t (0 : Fin 2) * 4096 + 1 * p.val = t.val * 4096 + p.val; rw [eBr]; omega
    | ⟨1, _⟩ => show win3_1.index t (1 : Fin 2) * 64 + 1 * j.val = j.val; rw [eBc]; omega
  · show V c main_arg1 (((cfg3.win 2).blk t).view.emb (ix2 p 0)) = V c main_arg1 (ix2 _ 0)
    refine congrArg _ (funext fun a => Fin.ext ?_)
    match a with
    | ⟨0, _⟩ => show win3_2.index t (0 : Fin 2) * 4096 + 1 * p.val = t.val * 4096 + p.val; rw [eCr]; omega
    | ⟨1, _⟩ => show win3_2.index t (1 : Fin 2) * 1 + 1 * 0 = 0; rw [eCc]
  · funext y
    show V c main_v61 (((cfg3.win 3).blk t).view.emb y) = V c main_v61 y
    refine congrArg _ (funext fun a => Fin.ext ?_)
    match a with
    | ⟨0, _⟩ => show win3_3.index t (0 : Fin 2) * 64 + 1 * (y 0).val = (y 0).val; rw [eDr]; omega
    | ⟨1, _⟩ => show win3_3.index t (1 : Fin 2) * 64 + 1 * (y 1).val = (y 1).val; rw [eDc]; omega
  · funext y
    show V c main_v56 (((cfg3.win 4).blk t).view.emb y) = V c main_v56 y
    refine congrArg _ (funext fun a => Fin.ext ?_)
    match a with
    | ⟨0, _⟩ => show win3_4.index t (0 : Fin 2) * 1 + 1 * (y 0).val = (y 0).val; rw [eEr]; omega
    | ⟨1, _⟩ => show win3_4.index t (1 : Fin 2) * 64 + 1 * (y 1).val = (y 1).val; rw [eEc]; omega
  · funext y
    show V c main_v63 (((cfg3.win 5).blk t).view.emb y) = V c main_v63 y
    refine congrArg _ (funext fun a => Fin.ext ?_)
    match a with
    | ⟨0, _⟩ => show win3_5.index t (0 : Fin 2) * 64 + 1 * (y 0).val = (y 0).val; rw [eFr]; omega
    | ⟨1, _⟩ => show win3_5.index t (1 : Fin 2) * 64 + 1 * (y 1).val = (y 1).val; rw [eFc]; omega
  · funext y
    show V c main_v59 (((cfg3.win 6).blk t).view.emb y) = V c main_v59 y
    refine congrArg _ (funext fun a => Fin.ext ?_)
    match a with
    | ⟨0, _⟩ => show win3_6.index t (0 : Fin 2) * 1 + 1 * (y 0).val = (y 0).val; rw [eGr]; omega
    | ⟨1, _⟩ => show win3_6.index t (1 : Fin 2) * 64 + 1 * (y 1).val = (y 1).val; rw [eGc]; omega

end Blocks

theorem memBlk3 (t : Fin cfg3.N) (i : S65536x64.Idx) :
    i ∈ ((cfg3.win 7).blk t).view.set ↔ ∀ a : Fin 2, win3_7.index t a * S4096x64.size a ≤ (i a).val ∧ (i a).val < win3_7.index t a * S4096x64.size a + S4096x64.size a := by
  show i ∈ ((View.whole (Pipeline.arrRef spec3 7)).slice (win3_7.rect t)).set ↔ _
  rw [View.set_slice_whole, Rect.mem_set_unit]
  exact Iff.rfl

theorem covered3 (i : S65536x64.Idx) :
    ∃ t : Fin cfg3.N, (cfg3.win 7).flush t = true ∧ i ∈ ((cfg3.win 7).blk t).view.set := by
  have hrow : (i 0).val < 65536 := (i 0).isLt
  have hcol : (i 1).val < 64 := (i 1).isLt
  obtain ⟨t, ht⟩ : ∃ t : Fin cfg3.N, t.val = (i 0).val / 4096 :=
    ⟨⟨(i 0).val / 4096, by rw [show cfg3.N = 16 from N_3]; omega⟩, rfl⟩
  obtain ⟨-, -, -, -, -, -, -, -, -, -, -, -, -, -, eHr, eHc⟩ := idxFacts3 t
  refine ⟨t, flush3_7 t, ?_⟩
  rw [memBlk3]
  intro a
  match a with
  | ⟨0, _⟩ => show win3_7.index t (0 : Fin 2) * 4096 ≤ (i 0).val ∧ (i 0).val < win3_7.index t (0 : Fin 2) * 4096 + 4096; rw [eHr]; omega
  | ⟨1, _⟩ => show win3_7.index t (1 : Fin 2) * 64 ≤ (i 1).val ∧ (i 1).val < win3_7.index t (1 : Fin 2) * 64 + 64; rw [eHc]; omega

section Final
variable (V : (c : Dev nD) → (b : Ref sig .tc) → Buf (Elt Ideal) ((c : Thread nD τ).loc b))

theorem val3 (c : Dev nD) :
    (Cert.KernelIdeal.Hand.dat3 (F := Ideal) V c).arrAt 7 cfg3.N = Cert.Spec.mlp (V c main_v43) (V c main_v53) (fun n => V c main_arg1 (ix2 n 0)) (fun j k => V c main_v61 (ix2 j k)) (fun k => V c main_v56 (ix2 0 k)) (fun j k => V c main_v63 (ix2 j k)) (fun k => V c main_v59 (ix2 0 k)) :=
  (dat3 (F := Ideal) V c).arrAt_eq_of_cover 7 (Cert.Spec.mlp (V c main_v43) (V c main_v53) (fun n => V c main_arg1 (ix2 n 0)) (fun j k => V c main_v61 (ix2 j k)) (fun k => V c main_v56 (ix2 0 k)) (fun j k => V c main_v63 (ix2 j k)) (fun k => V c main_v59 (ix2 0 k))) (fun t _ => flushedEq3 V c t) covered3

end Final

end Cert.KernelIdeal.HandValue
-- ==== Proof.KI.Value4.lean ====
/- A layer region's output array holds the specification's layer of the region's input arrays. -/
import proofs.«401991_j17171279249890_1_alg».proof.Proof.KI.Region4
import proofs.«401991_j17171279249890_1_alg».proof.Proof.KI.LayerValue
import proofs.«401991_j17171279249890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem idxFacts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

section Blocks
variable (V : (c : Dev nD) → (b : Ref sig .tc) → Buf (Elt Ideal) ((c : Thread nD τ).loc b))

set_option maxHeartbeats 4000000 in
theorem flushedEq4 (c : Dev nD) (t : Fin cfg4.N) :
    (dat4 (F := Ideal) V c).flushed 7 t = ((cfg4.win 7).blk t).view.read (Elt Ideal) (Cert.Spec.mlp (V c main_v64) (V c main_v74) (fun n => V c main_arg1 (ix2 n 0)) (fun j k => V c main_v82 (ix2 j k)) (fun k => V c main_v77 (ix2 0 k)) (fun j k => V c main_v84 (ix2 j k)) (fun k => V c main_v80 (ix2 0 k))) := by
  show (cfg4.win 7).cut (grid4.coords t) ((dat4 V c).after 7 t) = _
  rw [after4_7]
  unfold layerOut
  rw [View.canon_unit_zero zeroOff]
  simp only [View.ld_unit_zero (S := S4096x64) zeroOff, View.ld_unit_zero (S := S4096x1) zeroOff,
    View.ld_unit_zero (S := S64x64) zeroOff, View.ld_unit_zero (S := S1x64) zeroOff]
  obtain ⟨eAr, eAc, eBr, eBc, eCr, eCc, eDr, eDc, eEr, eEc, eFr, eFc, eGr, eGc, eHr, eHc⟩ := idxFacts4 t
  have hN : t.val < 16 := lt_of_lt_of_eq t.isLt (show cfg4.N = 16 from N_4)
  funext y
  obtain ⟨p, q, rfl⟩ : ∃ (p : Fin 4096) (q : Fin 64), y = ix2 p q := ⟨y 0, y 1, eq_ix2 y⟩
  have hP : t.val * 4096 + p.val < 65536 := by have := p.isLt; omega
  show k1_pay1 (F := Ideal) (iblk4 V c 0 t) (iblk4 V c 1 t) (iblk4 V c 3 t) (iblk4 V c 4 t) (iblk4 V c 5 t) (iblk4 V c 6 t) (iblk4 V c 2 t) (ix2 p q)
    = Cert.Spec.mlp (V c main_v64) (V c main_v74) (fun n => V c main_arg1 (ix2 n 0)) (fun j k => V c main_v82 (ix2 j k)) (fun k => V c main_v77 (ix2 0 k)) (fun j k => V c main_v84 (ix2 j k)) (fun k => V c main_v80 (ix2 0 k)) (((cfg4.win 7).blk t).view.emb (ix2 p q))
  have hE : ((cfg4.win 7).blk t).view.emb (ix2 p q) = ix2 (⟨t.val * 4096 + p.val, hP⟩ : Fin 65536) q := by
    funext a; apply Fin.ext
    match a with
    | ⟨0, _⟩ => show win4_7.index t (0 : Fin 2) * 4096 + 1 * p.val = t.val * 4096 + p.val; rw [eHr]; omega
    | ⟨1, _⟩ => show win4_7.index t (1 : Fin 2) * 64 + 1 * q.val = q.val; rw [eHc]; omega
  rw [hE]
  refine entryEq (V c main_v64) (V c main_v74) (V c main_arg1) (V c main_v82) (V c main_v84) (V c main_v77) (V c main_v80)
    (iblk4 V c 0 t) (iblk4 V c 1 t) (iblk4 V c 3 t) (iblk4 V c 4 t) (iblk4 V c 5 t) (iblk4 V c 6 t) (iblk4 V c 2 t)
    ⟨t.val * 4096 + p.val, hP⟩ p q ?_ ?_ ?_ ?_ ?_ ?_ ?_
  · intro j
    show V c main_v64 (((cfg4.win 0).blk t).view.emb (ix2 p j)) = V c main_v64 (ix2 _ j)
    refine congrArg _ (funext fun a => Fin.ext ?_)
    match a with
    | ⟨0, _⟩ => show win4_0.index t (0 : Fin 2) * 4096 + 1 * p.val = t.val * 4096 + p.val; rw [eAr]; omega
    | ⟨1, _⟩ => show win4_0.index t (1 : Fin 2) * 64 + 1 * j.val = j.val; rw [eAc]; omega
  · intro j
    show V c main_v74 (((cfg4.win 1).blk t).view.emb (ix2 p j)) = V c main_v74 (ix2 _ j)
    refine congrArg _ (funext fun a => Fin.ext ?_)
    match a with
    | ⟨0, _⟩ => show win4_1.index t (0 : Fin 2) * 4096 + 1 * p.val = t.val * 4096 + p.val; rw [eBr]; omega
    | ⟨1, _⟩ => show win4_1.index t (1 : Fin 2) * 64 + 1 * j.val = j.val; rw [eBc]; omega
  · show V c main_arg1 (((cfg4.win 2).blk t).view.emb (ix2 p 0)) = V c main_arg1 (ix2 _ 0)
    refine congrArg _ (funext fun a => Fin.ext ?_)
    match a with
    | ⟨0, _⟩ => show win4_2.index t (0 : Fin 2) * 4096 + 1 * p.val = t.val * 4096 + p.val; rw [eCr]; omega
    | ⟨1, _⟩ => show win4_2.index t (1 : Fin 2) * 1 + 1 * 0 = 0; rw [eCc]
  · funext y
    show V c main_v82 (((cfg4.win 3).blk t).view.emb y) = V c main_v82 y
    refine congrArg _ (funext fun a => Fin.ext ?_)
    match a with
    | ⟨0, _⟩ => show win4_3.index t (0 : Fin 2) * 64 + 1 * (y 0).val = (y 0).val; rw [eDr]; omega
    | ⟨1, _⟩ => show win4_3.index t (1 : Fin 2) * 64 + 1 * (y 1).val = (y 1).val; rw [eDc]; omega
  · funext y
    show V c main_v77 (((cfg4.win 4).blk t).view.emb y) = V c main_v77 y
    refine congrArg _ (funext fun a => Fin.ext ?_)
    match a with
    | ⟨0, _⟩ => show win4_4.index t (0 : Fin 2) * 1 + 1 * (y 0).val = (y 0).val; rw [eEr]; omega
    | ⟨1, _⟩ => show win4_4.index t (1 : Fin 2) * 64 + 1 * (y 1).val = (y 1).val; rw [eEc]; omega
  · funext y
    show V c main_v84 (((cfg4.win 5).blk t).view.emb y) = V c main_v84 y
    refine congrArg _ (funext fun a => Fin.ext ?_)
    match a with
    | ⟨0, _⟩ => show win4_5.index t (0 : Fin 2) * 64 + 1 * (y 0).val = (y 0).val; rw [eFr]; omega
    | ⟨1, _⟩ => show win4_5.index t (1 : Fin 2) * 64 + 1 * (y 1).val = (y 1).val; rw [eFc]; omega
  · funext y
    show V c main_v80 (((cfg4.win 6).blk t).view.emb y) = V c main_v80 y
    refine congrArg _ (funext fun a => Fin.ext ?_)
    match a with
    | ⟨0, _⟩ => show win4_6.index t (0 : Fin 2) * 1 + 1 * (y 0).val = (y 0).val; rw [eGr]; omega
    | ⟨1, _⟩ => show win4_6.index t (1 : Fin 2) * 64 + 1 * (y 1).val = (y 1).val; rw [eGc]; omega

end Blocks

theorem memBlk4 (t : Fin cfg4.N) (i : S65536x64.Idx) :
    i ∈ ((cfg4.win 7).blk t).view.set ↔ ∀ a : Fin 2, win4_7.index t a * S4096x64.size a ≤ (i a).val ∧ (i a).val < win4_7.index t a * S4096x64.size a + S4096x64.size a := by
  show i ∈ ((View.whole (Pipeline.arrRef spec4 7)).slice (win4_7.rect t)).set ↔ _
  rw [View.set_slice_whole, Rect.mem_set_unit]
  exact Iff.rfl

theorem covered4 (i : S65536x64.Idx) :
    ∃ t : Fin cfg4.N, (cfg4.win 7).flush t = true ∧ i ∈ ((cfg4.win 7).blk t).view.set := by
  have hrow : (i 0).val < 65536 := (i 0).isLt
  have hcol : (i 1).val < 64 := (i 1).isLt
  obtain ⟨t, ht⟩ : ∃ t : Fin cfg4.N, t.val = (i 0).val / 4096 :=
    ⟨⟨(i 0).val / 4096, by rw [show cfg4.N = 16 from N_4]; omega⟩, rfl⟩
  obtain ⟨-, -, -, -, -, -, -, -, -, -, -, -, -, -, eHr, eHc⟩ := idxFacts4 t
  refine ⟨t, flush4_7 t, ?_⟩
  rw [memBlk4]
  intro a
  match a with
  | ⟨0, _⟩ => show win4_7.index t (0 : Fin 2) * 4096 ≤ (i 0).val ∧ (i 0).val < win4_7.index t (0 : Fin 2) * 4096 + 4096; rw [eHr]; omega
  | ⟨1, _⟩ => show win4_7.index t (1 : Fin 2) * 64 ≤ (i 1).val ∧ (i 1).val < win4_7.index t (1 : Fin 2) * 64 + 64; rw [eHc]; omega

section Final
variable (V : (c : Dev nD) → (b : Ref sig .tc) → Buf (Elt Ideal) ((c : Thread nD τ).loc b))

theorem val4 (c : Dev nD) :
    (Cert.KernelIdeal.Hand.dat4 (F := Ideal) V c).arrAt 7 cfg4.N = Cert.Spec.mlp (V c main_v64) (V c main_v74) (fun n => V c main_arg1 (ix2 n 0)) (fun j k => V c main_v82 (ix2 j k)) (fun k => V c main_v77 (ix2 0 k)) (fun j k => V c main_v84 (ix2 j k)) (fun k => V c main_v80 (ix2 0 k)) :=
  (dat4 (F := Ideal) V c).arrAt_eq_of_cover 7 (Cert.Spec.mlp (V c main_v64) (V c main_v74) (fun n => V c main_arg1 (ix2 n 0)) (fun j k => V c main_v82 (ix2 j k)) (fun k => V c main_v77 (ix2 0 k)) (fun j k => V c main_v84 (ix2 j k)) (fun k => V c main_v80 (ix2 0 k))) (fun t _ => flushedEq4 V c t) covered4

end Final

end Cert.KernelIdeal.HandValue
-- ==== Proof.KI.PoolMath.lean ====
/- The pooled read-out: the masked matrix product ∑ n, [indicator n = g] * f n over node tiles is the sum of the rows whose indicator is g. -/
import proofs.«401991_j17171279249890_1_alg».proof.Proof.Gen.KernelIdeal.Skeleton
import proofs.«401991_j17171279249890_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx Idealize.SL.Sem

theorem k5_pay1_apply (j : S512x64.Idx) : (k5_pay1 (F := Ideal)) j = 0 := by
  unfold k5_pay1
  rw [shapeCast_self]
  show Ideal.ofBits .f32 0x00000000#32 = 0
  exact Ideal.ofBits_zero_f32

theorem k5_pay2_apply (j : S512x10.Idx) : (k5_pay2 (F := Ideal)) j = 0 := by
  unfold k5_pay2
  show Ideal.ofBits .f32 0x00000000#32 = 0
  exact Ideal.ofBits_zero_f32

theorem mask_entry (a b : BitVec 32) :
    FloatOps.sitofp (F := Ideal) .f32 ((IntOp.cmpi .eq a b).setWidth 32) = if a = b then 1 else 0 := by
  by_cases h : a = b
  · subst h
    rw [if_pos rfl]
    have : IntOp.cmpi .eq a a = 1#1 := by simp [IntOp.cmpi]
    rw [this]
    show (((1#1 : BitVec 1).setWidth 32).toInt : ℝ) = (1 : EReal)
    have : ((1#1 : BitVec 1).setWidth 32).toInt = 1 := by decide
    rw [this]; simp
  · rw [if_neg h]
    have : IntOp.cmpi .eq a b = 0#1 := by
      have hb : (a == b) = false := by simpa using h
      simp [IntOp.cmpi, hb]
    rw [this]
    show (((0#1 : BitVec 1).setWidth 32).toInt : ℝ) = (0 : EReal)
    have : ((0#1 : BitVec 1).setWidth 32).toInt = 0 := by decide
    rw [this]; simp

theorem lhs_mask_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_mask_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_mask_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_mask_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem matmul_mask_apply (A : FVec Ideal S512x1024 .bf16) (B : FVec Ideal S1024x64 .bf16) (g : Fin 512) (h : Fin 64) :
    matmul dot_S512x1024_S1024x64_S512x64_1_0_0_1_n_n none A B (constant (F := Ideal) S512x64 .f32 0x00000000#32) (ix2 g h)
      = ∑ k : Fin 1024, A (ix2 g k) * B (ix2 k h) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 g h) ((contrEquiv1 dot_S512x1024_S1024x64_S512x64_1_0_0_1_n_n 1024 rfl rfl).symm k) = ix2 g k := funext fun a => Fin.ext (by
    match a with
    | ⟨0, _⟩ => exact lhs_mask_0 _ _
    | ⟨1, _⟩ => exact (lhs_mask_1 _ _).trans hk)
  have er : dot_S512x1024_S1024x64_S512x64_1_0_0_1_n_n.rhsIdx (ix2 g h) ((contrEquiv1 dot_S512x1024_S1024x64_S512x64_1_0_0_1_n_n 1024 rfl rfl).symm k) = ix2 k h := funext fun a => Fin.ext (by
    match a with
    | ⟨0, _⟩ => exact (rhs_mask_0 _ _).trans hk
    | ⟨1, _⟩ => exact rhs_mask_1 _ _)
  rw [el, er]

theorem lhs_read_0 (i : S512x10.Idx) (q : dot_S512x64_S64x10_S512x10_1_0_0_1_n_n.contr.Idx) :
    (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl
theorem lhs_read_1 (i : S512x10.Idx) (q : dot_S512x64_S64x10_S512x10_1_0_0_1_n_n.contr.Idx) :
    (dot_S512x64_S64x10_S512x10_1_0_0_1_n_n.lhsIdx i q 1).val = (q ⟨0, by decide⟩).val :=
  dot_S512x64_S64x10_S512x10_1_0_0_1_n_n.lhsIdx_val_of_single rfl i q
theorem rhs_read_0 (i : S512x10.Idx) (q : dot_S512x64_S64x10_S512x10_1_0_0_1_n_n.contr.Idx) :
    (dot_S512x64_S64x10_S512x10_1_0_0_1_n_n.rhsIdx i q 0).val = (q ⟨0, by decide⟩).val :=
  dot_S512x64_S64x10_S512x10_1_0_0_1_n_n.rhsIdx_val_of_single rfl i q
theorem rhs_read_1 (i : S512x10.Idx) (q : dot_S512x64_S64x10_S512x10_1_0_0_1_n_n.contr.Idx) :
    (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl

theorem matmul_read_apply (A : FVec Ideal S512x64 .bf16) (B : FVec Ideal S64x10 .bf16) (g : Fin 512) (c : Fin 10) :
    matmul dot_S512x64_S64x10_S512x10_1_0_0_1_n_n none A B (constant (F := Ideal) S512x10 .f32 0x00000000#32) (ix2 g c)
      = ∑ h : Fin 64, A (ix2 g h) * B (ix2 h c) := by
  simp only [matmul]
  rw [Ideal.matmul_constant_zero_apply, ← Equiv.sum_comp (contrEquiv1 dot_S512x64_S64x10_S512x10_1_0_0_1_n_n 64 rfl rfl).symm]
  refine Finset.sum_congr rfl fun k _ => ?_
  have hk := contrEquiv1_symm_val dot_S512x64_S64x10_S512x10_1_0_0_1_n_n 64 rfl rfl k
  have el : dot_S512x64_S64x10_S512x10_1_0_0_1_n_n.lhsIdx (ix2 g c) ((contrEquiv1 dot_S512x64_S64x10_S512x10_1_0_0_1_n_n 64 rfl rfl).symm k) = ix2 g k := funext fun a => Fin.ext (by
    match a with
    | ⟨0, _⟩ => exact lhs_read_0 _ _
    | ⟨1, _⟩ => exact (lhs_read_1 _ _).trans hk)
  have er : dot_S512x64_S64x10_S512x10_1_0_0_1_n_n.rhsIdx (ix2 g c) ((contrEquiv1 dot_S512x64_S64x10_S512x10_1_0_0_1_n_n 64 rfl rfl).symm k) = ix2 k c := funext fun a => Fin.ext (by
    match a with
    | ⟨0, _⟩ => exact (rhs_read_0 _ _).trans hk
    | ⟨1, _⟩ => exact rhs_read_1 _ _)
  rw [el, er]

theorem broadcastTo_col_apply {α : Type} (v : S512x1.Idx → α) (g : Fin 512) (k : Fin 1024) :
    broadcastTo S512x1024 v broadcasts_S512x1_S512x1024 (ix2 g k) = v (ix2 g (0 : Fin 1)) := by
  refine broadcastTo_apply v _ (ix2 g k) (ix2 g (0 : Fin 1)) fun ax => ?_
  match ax with
  | ⟨0, _⟩ =>
    show g.val = if (512 : ℕ) = 1 then 0 else g.val
    rw [if_neg (by decide)]
  | ⟨1, _⟩ => rfl

theorem k5_pay3_apply (x0 : Vec Ideal S1x1024x64 .f32) (x1 : Vec Ideal S1024 .i32) (s : Vec Ideal S512x64 .f32) (g : Fin 512) (h : Fin 64) :
    k5_pay3 (F := Ideal) x0 x1 s (ix2 g h)
      = s (ix2 g h) + ∑ k : Fin 1024, (if x1 (ix1 k) = BitVec.ofNat 32 g.val then x0 (ix3 (0 : Fin 1) k h) else 0) := by
  unfold k5_pay3
  rw [shapeCast_self, addf_apply, matmul_mask_apply]
  refine congrArg (s (ix2 g h) + ·) (Finset.sum_congr rfl fun k _ => ?_)
  rw [truncf_apply, truncf_apply, sitofp_apply, extui_apply, shapeCast_1ab_ab_apply]
  show FloatOps.sitofp (F := Ideal) .f32 ((IntOp.cmpi .eq (broadcastTo S512x1024 _ broadcasts_S512x1_S512x1024 (ix2 g k)) (broadcastTo S512x1024 _ broadcasts_S1x1024_S512x1024 (ix2 g k))).setWidth 32) * _ = _
  rw [broadcastTo_col_apply, broadcastTo_1b_ab_apply, shapeCast_a_1a_apply, iota_single_apply, mask_entry]
  show (if BitVec.ofNat 32 g.val = x1 (ix1 k) then (1 : EReal) else 0) * _ = _
  by_cases hk : x1 (ix1 k) = BitVec.ofNat 32 g.val
  · rw [if_pos hk, if_pos hk.symm, one_mul]
  · rw [if_neg hk, if_neg (fun e => hk e.symm), zero_mul]

theorem k5_pay4_apply (s : Vec Ideal S512x64 .f32) (x2 : Vec Ideal S1x64x10 .f32) (x3 : Vec Ideal S1x1x10 .f32) (o : Vec Ideal S512x10 .f32) (g : Fin 512) (c : Fin 10) :
    k5_pay4 (F := Ideal) s x2 x3 o (ix2 g c)
      = o (ix2 g c) + ((∑ h : Fin 64, s (ix2 g h) * x2 (ix3 (0 : Fin 1) h c)) + x3 (ix3 (0 : Fin 1) (0 : Fin 1) c)) := by
  unfold k5_pay4
  rw [addf_apply, shapeCast_self, addf_apply, matmul_read_apply, broadcastTo_1b_ab_apply, shapeCast_1ab_ab_apply]
  refine congrArg (o (ix2 g c) + ·) (congrArg (· + x3 (ix3 (0 : Fin 1) (0 : Fin 1) c)) (Finset.sum_congr rfl fun h _ => ?_))
  rw [truncf_apply, truncf_apply, shapeCast_1ab_ab_apply]

section Run

variable (o : ℕ → Vec Ideal S512x10 .f32) (s : ℕ → Vec Ideal S512x64 .f32)
  (X0 : ℕ → Vec Ideal S1x1024x64 .f32) (X1 : ℕ → Vec Ideal S1024 .i32)
  (X2 : ℕ → Vec Ideal S1x64x10 .f32) (X3 : ℕ → Vec Ideal S1x1x10 .f32)

def tileSum (n : ℕ) (g : Fin 512) (h : Fin 64) : EReal :=
  ∑ k : Fin 1024, (if X1 n (ix1 k) = BitVec.ofNat 32 g.val then X0 n (ix3 (0 : Fin 1) k h) else 0)

def layerScore (l : ℕ) (g : Fin 512) (c : Fin 10) : EReal :=
  (∑ h : Fin 64, s (64 * l + 63) (ix2 g h) * X2 (64 * l + 63) (ix3 (0 : Fin 1) h c)) + X3 (64 * l + 63) (ix3 (0 : Fin 1) (0 : Fin 1) c)

structure IsRun : Prop where
  acc : ∀ n, n < 320 → s n = k5_pay3 (F := Ideal) (X0 n) (X1 n) (if n % 64 = 0 then k5_pay1 (F := Ideal) else s (n - 1))
  out : ∀ n, n < 320 → o n = if n % 64 = 63 then k5_pay4 (F := Ideal) (s n) (X2 n) (X3 n) (if n = 0 then k5_pay2 (F := Ideal) else o (n - 1))
      else (if n = 0 then k5_pay2 (F := Ideal) else o (n - 1))

variable {o s X0 X1 X2 X3}

theorem IsRun.acc_closed (hrun : IsRun o s X0 X1 X2 X3) (g : Fin 512) (h : Fin 64) :
    ∀ n, n < 320 → s n (ix2 g h) = ∑ t ∈ Finset.range (n % 64 + 1), tileSum X0 X1 (n - n % 64 + t) g h := by
  intro n
  induction n with
  | zero =>
    intro hn
    rw [hrun.acc 0 hn, k5_pay3_apply, if_pos (by decide), k5_pay1_apply, zero_add]
    show _ = ∑ t ∈ Finset.range 1, _
    rw [Finset.sum_range_one]
    rfl
  | succ n ih =>
    intro hn
    rw [hrun.acc (n + 1) hn, k5_pay3_apply]
    by_cases h0 : (n + 1) % 64 = 0
    · rw [if_pos h0, k5_pay1_apply, zero_add, h0, Finset.sum_range_one]
      rfl
    · have e1 : (n + 1) % 64 = n % 64 + 1 := by omega
      have e2 : n + 1 - (n % 64 + 1) = n - n % 64 := by omega
      have e3 : n - n % 64 + (n % 64 + 1) = n + 1 := by omega
      rw [if_neg h0, e1, Finset.sum_range_succ, e2, e3, Nat.add_sub_cancel, ih (by omega)]
      rfl

theorem IsRun.out_closed (hrun : IsRun o s X0 X1 X2 X3) (g : Fin 512) (c : Fin 10) :
    ∀ n, n < 320 → o n (ix2 g c) = ∑ l ∈ Finset.range ((n + 1) / 64), layerScore s X2 X3 l g c := by
  intro n
  induction n with
  | zero =>
    intro hn
    rw [hrun.out 0 hn, if_neg (by decide), if_pos rfl, k5_pay2_apply]
    rfl
  | succ n ih =>
    intro hn
    rw [hrun.out (n + 1) hn, if_neg (Nat.succ_ne_zero n), Nat.add_sub_cancel]
    by_cases h63 : (n + 1) % 64 = 63
    · have e1 : (n + 1 + 1) / 64 = (n + 1) / 64 + 1 := by omega
      have e2 : 64 * ((n + 1) / 64) + 63 = n + 1 := by omega
      rw [if_pos h63, k5_pay4_apply, e1, Finset.sum_range_succ, ih (by omega)]
      unfold layerScore
      rw [e2]
    · have e1 : (n + 1 + 1) / 64 = (n + 1) / 64 := by omega
      rw [if_neg h63, e1, ih (by omega)]

end Run

theorem sum_nodes_eq_sum_tiles {M : Type*} [AddCommMonoid M] (F : Fin 65536 → M) :
    ∑ n : Fin 65536, F n = ∑ t : Fin 64, ∑ k : Fin 1024, F ⟨1024 * t.val + k.val, by omega⟩ := by
  rw [← Equiv.sum_comp (finProdFinEquiv (m := 64) (n := 1024)) F, Fintype.sum_prod_type]
  refine Finset.sum_congr rfl fun t _ => Finset.sum_congr rfl fun k _ => congrArg F (Fin.ext ?_)
  show k.val + 1024 * t.val = 1024 * t.val + k.val
  omega

section Last

variable {o : ℕ → Vec Ideal S512x10 .f32} {s : ℕ → Vec Ideal S512x64 .f32}
  {X0 : ℕ → Vec Ideal S1x1024x64 .f32} {X1 : ℕ → Vec Ideal S1024 .i32}
  {X2 : ℕ → Vec Ideal S1x64x10 .f32} {X3 : ℕ → Vec Ideal S1x1x10 .f32}
  (f : Fin 5 → Fin 65536 → Fin 64 → EReal) (ind : Fin 65536 → BitVec 32)
  (sw : Fin 5 → Fin 64 → Fin 10 → EReal) (sb : Fin 5 → Fin 10 → EReal)

theorem IsRun.last_score (hrun : IsRun o s X0 X1 X2 X3)
    (hfeats : ∀ (l : Fin 5) (t : Fin 64) (k : Fin 1024) (h : Fin 64),
      X0 (64 * l.val + t.val) (ix3 (0 : Fin 1) k h) = f l ⟨1024 * t.val + k.val, by omega⟩ h)
    (hwords : ∀ (l : Fin 5) (t : Fin 64) (k : Fin 1024), X1 (64 * l.val + t.val) (ix1 k) = ind ⟨1024 * t.val + k.val, by omega⟩)
    (hweights : ∀ (l : Fin 5) (h : Fin 64) (c : Fin 10), X2 (64 * l.val + 63) (ix3 (0 : Fin 1) h c) = sw l h c)
    (hbias : ∀ (l : Fin 5) (c : Fin 10), X3 (64 * l.val + 63) (ix3 (0 : Fin 1) (0 : Fin 1) c) = sb l c) :
    o 319 = Cert.Spec.score f ind sw sb := by
  funext i
  obtain ⟨g, c, rfl⟩ : ∃ (g : Fin 512) (c : Fin 10), i = ix2 g c := ⟨i 0, i 1, eq_ix2 i⟩
  rw [hrun.out_closed g c 319 (by decide)]
  show ∑ l ∈ Finset.range 5, layerScore s X2 X3 l g c = ∑ l : Fin 5, ((∑ h : Fin 64, Cert.Spec.pooled f ind l g h * sw l h c) + sb l c)
  rw [← Fin.sum_univ_eq_sum_range (fun l => layerScore s X2 X3 l g c) 5]
  refine Finset.sum_congr rfl fun l _ => ?_
  unfold layerScore
  rw [hbias l c]
  refine congrArg (· + sb l c) (Finset.sum_congr rfl fun h _ => ?_)
  rw [hweights l h c, hrun.acc_closed g h (64 * l.val + 63) (by omega)]
  have e1 : (64 * l.val + 63) % 64 + 1 = 64 := by omega
  have e2 : 64 * l.val + 63 - (64 * l.val + 63) % 64 = 64 * l.val := by omega
  rw [e1, e2, ← Fin.sum_univ_eq_sum_range (fun t => tileSum X0 X1 (64 * l.val + t) g h) 64]
  refine congrArg (· * sw l h c) ?_
  unfold Cert.Spec.pooled
  rw [sum_nodes_eq_sum_tiles]
  refine Finset.sum_congr rfl fun t _ => ?_
  unfold tileSum
  refine Finset.sum_congr rfl fun k _ => ?_
  rw [hfeats l t k h, hwords l t k]

end Last

end Cert.KernelIdeal.HandValue

end
-- ==== Proof.KI.PoolValue.lean ====
/- Region 5's output array as the pooled scores of the five feature matrices. -/
import proofs.«401991_j17171279249890_1_alg».proof.Proof.KI.Region5
import proofs.«401991_j17171279249890_1_alg».proof.Proof.KI.PoolMath
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx5_0 : ∀ t : Fin cfg5.N, win5_0.index t 0 = t.val / 64 ∧ win5_0.index t 1 = t.val % 64 ∧ win5_0.index t 2 = 0 :=
  (by decide +kernel : ∀ t : Fin grid5.N, win5_0.index t 0 = t.val / 64 ∧ win5_0.index t 1 = t.val % 64 ∧ win5_0.index t 2 = 0)

theorem iblk5_0_apply (c : Dev nD) (t : Fin cfg5.N) (k : Fin 1024) (h : Fin 64) (l : Fin 5) (n : Fin 65536)
    (hl : l.val = t.val / 64) (hn : n.val = 1024 * (t.val % 64) + k.val) :
    iblk5 V c 0 t (ix3 (0 : Fin 1) k h) = V c main_v91 (ix3 l n h) := by
  show V c main_v91 (((cfg5.win 0).blk t).view.emb (ix3 (0 : Fin 1) k h)) = V c main_v91 (ix3 l n h)
  refine congrArg (V c main_v91) (funext fun a => Fin.ext ?_)
  obtain ⟨h0, h1, h2⟩ := idx5_0 t
  match a with
  | ⟨0, _⟩ => show win5_0.index t 0 * 1 + 1 * 0 = l.val; rw [h0]; omega
  | ⟨1, _⟩ => show win5_0.index t 1 * 1024 + 1 * k.val = n.val; rw [h1]; omega
  | ⟨2, _⟩ => show win5_0.index t 2 * 64 + 1 * h.val = h.val; rw [h2]; omega

theorem idx5_1 : ∀ t : Fin cfg5.N, win5_1.index t 0 = t.val % 64 :=
  (by decide +kernel : ∀ t : Fin grid5.N, win5_1.index t 0 = t.val % 64)

theorem iblk5_1_apply (c : Dev nD) (t : Fin cfg5.N) (k : Fin 1024) (n : Fin 65536)
    (hn : n.val = 1024 * (t.val % 64) + k.val) :
    iblk5 V c 1 t (ix1 k) = V c main_arg12 (ix1 n) := by
  show V c main_arg12 (((cfg5.win 1).blk t).view.emb (ix1 k)) = V c main_arg12 (ix1 n)
  refine congrArg (V c main_arg12) (funext fun a => Fin.ext ?_)
  have h0 := idx5_1 t
  match a with
  | ⟨0, _⟩ => show win5_1.index t 0 * 1024 + 1 * k.val = n.val; rw [h0]; omega

theorem idx5_2 : ∀ t : Fin cfg5.N, win5_2.index t 0 = t.val / 64 ∧ win5_2.index t 1 = 0 ∧ win5_2.index t 2 = 0 :=
  (by decide +kernel : ∀ t : Fin grid5.N, win5_2.index t 0 = t.val / 64 ∧ win5_2.index t 1 = 0 ∧ win5_2.index t 2 = 0)

theorem iblk5_2_apply (c : Dev nD) (t : Fin cfg5.N) (h : Fin 64) (k : Fin 10) (l : Fin 5) (hl : l.val = t.val / 64) :
    iblk5 V c 2 t (ix3 (0 : Fin 1) h k) = V c main_arg8 (ix3 l h k) := by
  show V c main_arg8 (((cfg5.win 2).blk t).view.emb (ix3 (0 : Fin 1) h k)) = V c main_arg8 (ix3 l h k)
  refine congrArg (V c main_arg8) (funext fun a => Fin.ext ?_)
  obtain ⟨h0, h1, h2⟩ := idx5_2 t
  match a with
  | ⟨0, _⟩ => show win5_2.index t 0 * 1 + 1 * 0 = l.val; rw [h0]; omega
  | ⟨1, _⟩ => show win5_2.index t 1 * 64 + 1 * h.val = h.val; rw [h1]; omega
  | ⟨2, _⟩ => show win5_2.index t 2 * 10 + 1 * k.val = k.val; rw [h2]; omega

theorem idx5_3 : ∀ t : Fin cfg5.N, win5_3.index t 0 = t.val / 64 ∧ win5_3.index t 1 = 0 ∧ win5_3.index t 2 = 0 :=
  (by decide +kernel : ∀ t : Fin grid5.N, win5_3.index t 0 = t.val / 64 ∧ win5_3.index t 1 = 0 ∧ win5_3.index t 2 = 0)

theorem iblk5_3_apply (c : Dev nD) (t : Fin cfg5.N) (k : Fin 10) (l : Fin 5) (hl : l.val = t.val / 64) :
    iblk5 V c 3 t (ix3 (0 : Fin 1) (0 : Fin 1) k) = V c main_v92 (ix3 l (0 : Fin 1) k) := by
  show V c main_v92 (((cfg5.win 3).blk t).view.emb (ix3 (0 : Fin 1) (0 : Fin 1) k)) = V c main_v92 (ix3 l (0 : Fin 1) k)
  refine congrArg (V c main_v92) (funext fun a => Fin.ext ?_)
  obtain ⟨h0, h1, h2⟩ := idx5_3 t
  match a with
  | ⟨0, _⟩ => show win5_3.index t 0 * 1 + 1 * 0 = l.val; rw [h0]; omega
  | ⟨1, _⟩ => show win5_3.index t 1 * 1 + 1 * 0 = 0; rw [h1]
  | ⟨2, _⟩ => show win5_3.index t 2 * 10 + 1 * k.val = k.val; rw [h2]; omega

abbrev tLast : Fin cfg5.N := ⟨319, by rw [show cfg5.N = 320 from N_5]; decide⟩

theorem arrAt_last {c : Dev nD} (dat : Dat τ (Elt Ideal) Unit ℕ (UR sig nD τ) ℕ cfg5 c)
    (G : Buf (Elt Ideal) ((c : Thread nD τ).loc main_v93)) (hafter : dat.after 4 tLast = G) :
    dat.arrAt 4 cfg5.N = G := by
  have hN : cfg5.N = 320 := N_5
  refine dat.arrAt_eq_of_cover 4 G (fun t hf => ?_) (fun i => ⟨tLast, (flush5_4 tLast).mpr rfl, ?_⟩)
  · have h3 : t.val = 319 := by have := (flush5_4 t).mp hf; have := t.isLt; omega
    obtain rfl : t = tLast := Fin.ext h3
    show (cfg5.win 4).cut (grid5.coords tLast) (dat.after 4 tLast) = _
    rw [hafter]
    have hz' : (fun a => win5_4.index tLast a * main_v93.ty.shape.size a) = fun _ => 0 := funext fun a => by fin_cases a <;> decide
    exact (Memref.read_access_unit_zero (Elt Ideal) main_v93 hz' (fun a => by rw [congrFun hz' a]; simp) G).symm
  · show i ∈ ((View.whole main_v93).slice (win5_4.rect tLast)).set
    rw [View.set_slice_whole, Rect.mem_set_unit]
    intro a
    have h0 : (i 0 : Nat) < 512 := (i 0).isLt
    have h1 : (i 1 : Nat) < 10 := (i 1).isLt
    match a with
    | ⟨0, _⟩ => show win5_4.index tLast 0 * win5_4.size 0 ≤ (i 0 : Nat) ∧ (i 0 : Nat) < win5_4.index tLast 0 * win5_4.size 0 + win5_4.xsize (grid5.coords tLast) 0
                rw [show win5_4.index tLast 0 * win5_4.size 0 = 0 from by decide +kernel, show win5_4.xsize (grid5.coords tLast) 0 = 512 from by decide +kernel]; omega
    | ⟨1, _⟩ => show win5_4.index tLast 1 * win5_4.size 1 ≤ (i 1 : Nat) ∧ (i 1 : Nat) < win5_4.index tLast 1 * win5_4.size 1 + win5_4.xsize (grid5.coords tLast) 1
                rw [show win5_4.index tLast 1 * win5_4.size 1 = 0 from by decide +kernel, show win5_4.xsize (grid5.coords tLast) 1 = 10 from by decide +kernel]; omega

section Sequences
variable (c : Dev nD)

def scoreAt (n : ℕ) : Vec Ideal S512x10 .f32 := if h : n < cfg5.N then (outsAt5 V c n h).1 else k5_pay2 (F := Ideal)

def accAt (n : ℕ) : Vec Ideal S512x64 .f32 := if h : n < cfg5.N then (outsAt5 V c n h).2 else k5_pay1 (F := Ideal)

def featsAt (n : ℕ) : Vec Ideal S1x1024x64 .f32 := if h : n < cfg5.N then iblk5 V c 0 ⟨n, h⟩ else fun _ => (0 : EReal)

def wordsAt (n : ℕ) : Vec Ideal S1024 .i32 := if h : n < cfg5.N then iblk5 V c 1 ⟨n, h⟩ else fun _ => (0 : BitVec 32)

def weightsAt (n : ℕ) : Vec Ideal S1x64x10 .f32 := if h : n < cfg5.N then iblk5 V c 2 ⟨n, h⟩ else fun _ => (0 : EReal)

def biasAt (n : ℕ) : Vec Ideal S1x1x10 .f32 := if h : n < cfg5.N then iblk5 V c 3 ⟨n, h⟩ else fun _ => (0 : EReal)

theorem isRun5 : IsRun (scoreAt V c) (accAt V c) (featsAt V c) (wordsAt V c) (weightsAt V c) (biasAt V c) where
  acc n hn := by
    have h : n < cfg5.N := by rw [show cfg5.N = 320 from N_5]; exact hn
    have h' : n - 1 < cfg5.N := Nat.lt_of_le_of_lt (Nat.sub_le _ _) h
    unfold accAt featsAt wordsAt
    simp only [dif_pos h, dif_pos h']
    rw [outsAt5_eq V c n h]
  out n hn := by
    have h : n < cfg5.N := by rw [show cfg5.N = 320 from N_5]; exact hn
    have h' : n - 1 < cfg5.N := Nat.lt_of_le_of_lt (Nat.sub_le _ _) h
    unfold scoreAt accAt weightsAt biasAt
    simp only [dif_pos h, dif_pos h']
    rw [outsAt5_eq V c n h]

end Sequences

theorem val5 (c : Dev nD) :
    (dat5 (F := Ideal) V c).arrAt 4 cfg5.N
      = Cert.Spec.score (fun l n h => V c main_v91 (ix3 l n h)) (fun n => V c main_arg12 (ix1 n))
          (fun l h k => V c main_arg8 (ix3 l h k)) (fun l k => V c main_v92 (ix3 l (0 : Fin 1) k)) := by
  have hN : cfg5.N = 320 := N_5
  refine arrAt_last (dat5 V c) _ ?_
  rw [after5_4]
  have hlast := (isRun5 V c).last_score (fun l n h => V c main_v91 (ix3 l n h)) (fun n => V c main_arg12 (ix1 n))
      (fun l h k => V c main_arg8 (ix3 l h k)) (fun l k => V c main_v92 (ix3 l (0 : Fin 1) k))
    (fun l t k h => by
      have hp : 64 * l.val + t.val < cfg5.N := by rw [hN]; omega
      unfold featsAt
      rw [dif_pos hp]
      exact iblk5_0_apply V c ⟨64 * l.val + t.val, hp⟩ k h l _ (by show l.val = (64 * l.val + t.val) / 64; omega)
        (by show 1024 * t.val + k.val = 1024 * ((64 * l.val + t.val) % 64) + k.val; omega))
    (fun l t k => by
      have hp : 64 * l.val + t.val < cfg5.N := by rw [hN]; omega
      unfold wordsAt
      rw [dif_pos hp]
      exact iblk5_1_apply V c ⟨64 * l.val + t.val, hp⟩ k _
        (by show 1024 * t.val + k.val = 1024 * ((64 * l.val + t.val) % 64) + k.val; omega))
    (fun l h k => by
      have hp : 64 * l.val + 63 < cfg5.N := by rw [hN]; omega
      unfold weightsAt
      rw [dif_pos hp]
      exact iblk5_2_apply V c ⟨64 * l.val + 63, hp⟩ h k l (by show l.val = (64 * l.val + 63) / 64; omega))
    (fun l k => by
      have hp : 64 * l.val + 63 < cfg5.N := by rw [hN]; omega
      unfold biasAt
      rw [dif_pos hp]
      exact iblk5_3_apply V c ⟨64 * l.val + 63, hp⟩ k l (by show l.val = (64 * l.val + 63) / 64; omega))
  unfold scoreAt at hlast
  rw [dif_pos (by rw [hN]; decide)] at hlast
  exact hlast

end Cert.KernelIdeal.HandValue

end
-- ==== Proof.KI.AggDef.lean ====
/- The edge aggregation of a layer as one function of a feature matrix and the edge list: the gathered source rows scatter-added at the destinations. -/
import proofs.«401991_j17171279249890_1_alg».proof.Proof.Gen.KernelIdeal
import Idealize.ShloMosaic.PureOps.Ideal

noncomputable section

namespace Cert.KernelIdeal.HandValue

open Cert.KernelIdeal Cert.KernelIdeal.Gen Idealize.ShloMosaic

def aggK (h : FVec Ideal S65536x64 .f32) (src dst : IVec S1048576 32) : FVec Ideal S65536x64 .f32 :=
  Host.scatterAdd (F := Ideal) scatter_S65536x64_S1048576x1_S1048576x64_1_0_0_1
    (broadcastInDim S65536x64 ![] bcast_S_S65536x64 (constant (F := Ideal) S_ .f32 0x00000000#32))
    (broadcastInDim S1048576x1 ![0] bcast_S1048576_S1048576x1_0 dst)
    (Host.gather gather_S65536x64_S1048576x1_S1048576x64_1_0_n_n_0_1_164 h
      (broadcastInDim S1048576x1 ![0] bcast_S1048576_S1048576x1_0
        (select (cmpi .slt src (broadcastInDim S1048576 ![] bcast_S_S1048576 (constantI S_ 32 0#32)))
          (addi src (broadcastInDim S1048576 ![] bcast_S_S1048576 (constantI S_ 32 65536#32))) src)))

end Cert.KernelIdeal.HandValue
-- ==== Proof.KI.HostRead.lean ====
/- The host stretches' results at an index. -/
import proofs.«401991_j17171279249890_1_alg».proof.Proof.Gen.KernelIdeal.Launch
import proofs.«401991_j17171279249890_1_alg».proof.Proof.Spec
import proofs.«401991_j17171279249890_1_alg».proof.Proof.KI.AggDef
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host0_bias (k : Fin 64) : StableHlo.after (hostOps0 (F := Ideal)) W main_v0 (ix2 0 k) = W main_arg3 (ix1 k) := by
  have e : (StableHlo.after (hostOps0 (F := Ideal)) W main_v0 : FVec Ideal S1x64 .f32) = shapeCast S1x64 (W main_arg3) shapeCasts_S64_S1x64 := by
    show StableHlo.after (hostOps0 (F := Ideal)) W (Proc.devRef .tc main_v0) = _
    after_results
    rfl
  rw [e]
  exact shapeCast_apply _ shapeCasts_S64_S1x64 _ _ (by rewrite [Shape.rowMajor_val_two, Shape.rowMajor_val_one]; show k.val = 0 * 64 + k.val; omega)

section Slices
variable {α : Type}

theorem sliceMat_apply (off : Fin S4x64x64.rank → Nat) (hs : S4x64x64.Slices off S1x64x64) (x : S4x64x64.Idx → α)
    (l : Fin 4) (h0 : off 0 = l.val) (h1 : off 1 = 0) (h2 : off 2 = 0) (j k : Fin 64) :
    shapeCast S64x64 (extractStridedSlice S1x64x64 off x hs) shapeCasts_S1x64x64_S64x64 (ix2 j k) = x (ix3 l j k) := by
  rw [shapeCast_apply _ shapeCasts_S1x64x64_S64x64 (ix2 j k) (ix3 0 j k)
    (by rewrite [Shape.rowMajor_val_three, Shape.rowMajor_val_two]; show (0 * 64 + j.val) * 64 + k.val = j.val * 64 + k.val; omega)]
  exact extractStridedSlice_apply off x hs (ix3 0 j k) (ix3 l j k) (fun a => match a with
    | ⟨0, _⟩ => by show l.val = off 0 + 0; omega
    | ⟨1, _⟩ => by show j.val = off 1 + j.val; omega
    | ⟨2, _⟩ => by show k.val = off 2 + k.val; omega)

theorem sliceRow_apply (off : Fin S4x64.rank → Nat) (hs : S4x64.Slices off S1x64) (x : S4x64.Idx → α)
    (l : Fin 4) (h0 : off 0 = l.val) (h1 : off 1 = 0) (k : Fin 64) :
    shapeCast S1x64 (shapeCast S64 (extractStridedSlice S1x64 off x hs) shapeCasts_S1x64_S64) shapeCasts_S64_S1x64 (ix2 0 k)
      = x (ix2 l k) := by
  rw [shapeCast_apply _ shapeCasts_S64_S1x64 (ix2 0 k) (ix1 k)
    (by rewrite [Shape.rowMajor_val_two, Shape.rowMajor_val_one]; show k.val = 0 * 64 + k.val; omega)]
  rw [shapeCast_apply _ shapeCasts_S1x64_S64 (ix1 k) (ix2 0 k)
    (by rewrite [Shape.rowMajor_val_two, Shape.rowMajor_val_one]; show 0 * 64 + k.val = k.val; omega)]
  exact extractStridedSlice_apply off x hs (ix2 0 k) (ix2 l k) (fun a => match a with
    | ⟨0, _⟩ => by show l.val = off 0 + 0; omega
    | ⟨1, _⟩ => by show k.val = off 1 + k.val; omega)

end Slices

set_option maxHeartbeats 1600000 in
theorem host1_agg : (StableHlo.after (hostOps1 (F := Ideal)) W main_v11 : FVec Ideal S65536x64 .f32)
    = aggK (W main_v1) (W main_arg10) (W main_arg11) := by
  show StableHlo.after (hostOps1 (F := Ideal)) W (Proc.devRef .tc main_v11) = _
  after_results
  rfl

theorem host1_w1 (j k : Fin 64) : StableHlo.after (hostOps1 (F := Ideal)) W main_v19 (ix2 j k) = W main_arg4 (ix3 0 j k) := by
  have e : (StableHlo.after (hostOps1 (F := Ideal)) W main_v19 : FVec Ideal S64x64 .f32)
      = shapeCast S64x64 (extractStridedSlice S1x64x64 ![0, 0, 0] (W main_arg4) slices_S4x64x64_S1x64x64_0_0_0) shapeCasts_S1x64x64_S64x64 := by
    show StableHlo.after (hostOps1 (F := Ideal)) W (Proc.devRef .tc main_v19) = _
    after_results
    rfl
  rw [e]
  exact sliceMat_apply _ _ _ 0 rfl rfl rfl j k

theorem host1_b1 (k : Fin 64) : StableHlo.after (hostOps1 (F := Ideal)) W main_v14 (ix2 0 k) = W main_arg5 (ix2 0 k) := by
  have e : (StableHlo.after (hostOps1 (F := Ideal)) W main_v14 : FVec Ideal S1x64 .f32)
      = shapeCast S1x64 (shapeCast S64 (extractStridedSlice S1x64 ![0, 0] (W main_arg5) slices_S4x64_S1x64_0_0) shapeCasts_S1x64_S64) shapeCasts_S64_S1x64 := by
    show StableHlo.after (hostOps1 (F := Ideal)) W (Proc.devRef .tc main_v14) = _
    after_results
    rfl
  rw [e]
  exact sliceRow_apply _ _ _ 0 rfl rfl k

theorem host1_w2 (j k : Fin 64) : StableHlo.after (hostOps1 (F := Ideal)) W main_v21 (ix2 j k) = W main_arg6 (ix3 0 j k) := by
  have e : (StableHlo.after (hostOps1 (F := Ideal)) W main_v21 : FVec Ideal S64x64 .f32)
      = shapeCast S64x64 (extractStridedSlice S1x64x64 ![0, 0, 0] (W main_arg6) slices_S4x64x64_S1x64x64_0_0_0) shapeCasts_S1x64x64_S64x64 := by
    show StableHlo.after (hostOps1 (F := Ideal)) W (Proc.devRef .tc main_v21) = _
    after_results
    rfl
  rw [e]
  exact sliceMat_apply _ _ _ 0 rfl rfl rfl j k

theorem host1_b2 (k : Fin 64) : StableHlo.after (hostOps1 (F := Ideal)) W main_v17 (ix2 0 k) = W main_arg7 (ix2 0 k) := by
  have e : (StableHlo.after (hostOps1 (F := Ideal)) W main_v17 : FVec Ideal S1x64 .f32)
      = shapeCast S1x64 (shapeCast S64 (extractStridedSlice S1x64 ![0, 0] (W main_arg7) slices_S4x64_S1x64_0_0) shapeCasts_S1x64_S64) shapeCasts_S64_S1x64 := by
    show StableHlo.after (hostOps1 (F := Ideal)) W (Proc.devRef .tc main_v17) = _
    after_results
    rfl
  rw [e]
  exact sliceRow_apply _ _ _ 0 rfl rfl k

set_option maxHeartbeats 1600000 in
theorem host2_agg : (StableHlo.after (hostOps2 (F := Ideal)) W main_v32 : FVec Ideal S65536x64 .f32)
    = aggK (W main_v22) (W main_arg10) (W main_arg11) := by
  show StableHlo.after (hostOps2 (F := Ideal)) W (Proc.devRef .tc main_v32) = _
  after_results
  rfl

theorem host2_w1 (j k : Fin 64) : StableHlo.after (hostOps2 (F := Ideal)) W main_v40 (ix2 j k) = W main_arg4 (ix3 1 j k) := by
  have e : (StableHlo.after (hostOps2 (F := Ideal)) W main_v40 : FVec Ideal S64x64 .f32)
      = shapeCast S64x64 (extractStridedSlice S1x64x64 ![1, 0, 0] (W main_arg4) slices_S4x64x64_S1x64x64_1_0_0) shapeCasts_S1x64x64_S64x64 := by
    show StableHlo.after (hostOps2 (F := Ideal)) W (Proc.devRef .tc main_v40) = _
    after_results
    rfl
  rw [e]
  exact sliceMat_apply _ _ _ 1 rfl rfl rfl j k

theorem host2_b1 (k : Fin 64) : StableHlo.after (hostOps2 (F := Ideal)) W main_v35 (ix2 0 k) = W main_arg5 (ix2 1 k) := by
  have e : (StableHlo.after (hostOps2 (F := Ideal)) W main_v35 : FVec Ideal S1x64 .f32)
      = shapeCast S1x64 (shapeCast S64 (extractStridedSlice S1x64 ![1, 0] (W main_arg5) slices_S4x64_S1x64_1_0) shapeCasts_S1x64_S64) shapeCasts_S64_S1x64 := by
    show StableHlo.after (hostOps2 (F := Ideal)) W (Proc.devRef .tc main_v35) = _
    after_results
    rfl
  rw [e]
  exact sliceRow_apply _ _ _ 1 rfl rfl k

theorem host2_w2 (j k : Fin 64) : StableHlo.after (hostOps2 (F := Ideal)) W main_v42 (ix2 j k) = W main_arg6 (ix3 1 j k) := by
  have e : (StableHlo.after (hostOps2 (F := Ideal)) W main_v42 : FVec Ideal S64x64 .f32)
      = shapeCast S64x64 (extractStridedSlice S1x64x64 ![1, 0, 0] (W main_arg6) slices_S4x64x64_S1x64x64_1_0_0) shapeCasts_S1x64x64_S64x64 := by
    show StableHlo.after (hostOps2 (F := Ideal)) W (Proc.devRef .tc main_v42) = _
    after_results
    rfl
  rw [e]
  exact sliceMat_apply _ _ _ 1 rfl rfl rfl j k

theorem host2_b2 (k : Fin 64) : StableHlo.after (hostOps2 (F := Ideal)) W main_v38 (ix2 0 k) = W main_arg7 (ix2 1 k) := by
  have e : (StableHlo.after (hostOps2 (F := Ideal)) W main_v38 : FVec Ideal S1x64 .f32)
      = shapeCast S1x64 (shapeCast S64 (extractStridedSlice S1x64 ![1, 0] (W main_arg7) slices_S4x64_S1x64_1_0) shapeCasts_S1x64_S64) shapeCasts_S64_S1x64 := by
    show StableHlo.after (hostOps2 (F := Ideal)) W (Proc.devRef .tc main_v38) = _
    after_results
    rfl
  rw [e]
  exact sliceRow_apply _ _ _ 1 rfl rfl k

set_option maxHeartbeats 1600000 in
theorem host3_agg : (StableHlo.after (hostOps3 (F := Ideal)) W main_v53 : FVec Ideal S65536x64 .f32)
    = aggK (W main_v43) (W main_arg10) (W main_arg11) := by
  show StableHlo.after (hostOps3 (F := Ideal)) W (Proc.devRef .tc main_v53) = _
  after_results
  rfl

theorem host3_w1 (j k : Fin 64) : StableHlo.after (hostOps3 (F := Ideal)) W main_v61 (ix2 j k) = W main_arg4 (ix3 2 j k) := by
  have e : (StableHlo.after (hostOps3 (F := Ideal)) W main_v61 : FVec Ideal S64x64 .f32)
      = shapeCast S64x64 (extractStridedSlice S1x64x64 ![2, 0, 0] (W main_arg4) slices_S4x64x64_S1x64x64_2_0_0) shapeCasts_S1x64x64_S64x64 := by
    show StableHlo.after (hostOps3 (F := Ideal)) W (Proc.devRef .tc main_v61) = _
    after_results
    rfl
  rw [e]
  exact sliceMat_apply _ _ _ 2 rfl rfl rfl j k

theorem host3_b1 (k : Fin 64) : StableHlo.after (hostOps3 (F := Ideal)) W main_v56 (ix2 0 k) = W main_arg5 (ix2 2 k) := by
  have e : (StableHlo.after (hostOps3 (F := Ideal)) W main_v56 : FVec Ideal S1x64 .f32)
      = shapeCast S1x64 (shapeCast S64 (extractStridedSlice S1x64 ![2, 0] (W main_arg5) slices_S4x64_S1x64_2_0) shapeCasts_S1x64_S64) shapeCasts_S64_S1x64 := by
    show StableHlo.after (hostOps3 (F := Ideal)) W (Proc.devRef .tc main_v56) = _
    after_results
    rfl
  rw [e]
  exact sliceRow_apply _ _ _ 2 rfl rfl k

theorem host3_w2 (j k : Fin 64) : StableHlo.after (hostOps3 (F := Ideal)) W main_v63 (ix2 j k) = W main_arg6 (ix3 2 j k) := by
  have e : (StableHlo.after (hostOps3 (F := Ideal)) W main_v63 : FVec Ideal S64x64 .f32)
      = shapeCast S64x64 (extractStridedSlice S1x64x64 ![2, 0, 0] (W main_arg6) slices_S4x64x64_S1x64x64_2_0_0) shapeCasts_S1x64x64_S64x64 := by
    show StableHlo.after (hostOps3 (F := Ideal)) W (Proc.devRef .tc main_v63) = _
    after_results
    rfl
  rw [e]
  exact sliceMat_apply _ _ _ 2 rfl rfl rfl j k

theorem host3_b2 (k : Fin 64) : StableHlo.after (hostOps3 (F := Ideal)) W main_v59 (ix2 0 k) = W main_arg7 (ix2 2 k) := by
  have e : (StableHlo.after (hostOps3 (F := Ideal)) W main_v59 : FVec Ideal S1x64 .f32)
      = shapeCast S1x64 (shapeCast S64 (extractStridedSlice S1x64 ![2, 0] (W main_arg7) slices_S4x64_S1x64_2_0) shapeCasts_S1x64_S64) shapeCasts_S64_S1x64 := by
    show StableHlo.after (hostOps3 (F := Ideal)) W (Proc.devRef .tc main_v59) = _
    after_results
    rfl
  rw [e]
  exact sliceRow_apply _ _ _ 2 rfl rfl k

set_option maxHeartbeats 1600000 in
theorem host4_agg : (StableHlo.after (hostOps4 (F := Ideal)) W main_v74 : FVec Ideal S65536x64 .f32)
    = aggK (W main_v64) (W main_arg10) (W main_arg11) := by
  show StableHlo.after (hostOps4 (F := Ideal)) W (Proc.devRef .tc main_v74) = _
  after_results
  rfl

theorem host4_w1 (j k : Fin 64) : StableHlo.after (hostOps4 (F := Ideal)) W main_v82 (ix2 j k) = W main_arg4 (ix3 3 j k) := by
  have e : (StableHlo.after (hostOps4 (F := Ideal)) W main_v82 : FVec Ideal S64x64 .f32)
      = shapeCast S64x64 (extractStridedSlice S1x64x64 ![3, 0, 0] (W main_arg4) slices_S4x64x64_S1x64x64_3_0_0) shapeCasts_S1x64x64_S64x64 := by
    show StableHlo.after (hostOps4 (F := Ideal)) W (Proc.devRef .tc main_v82) = _
    after_results
    rfl
  rw [e]
  exact sliceMat_apply _ _ _ 3 rfl rfl rfl j k

theorem host4_b1 (k : Fin 64) : StableHlo.after (hostOps4 (F := Ideal)) W main_v77 (ix2 0 k) = W main_arg5 (ix2 3 k) := by
  have e : (StableHlo.after (hostOps4 (F := Ideal)) W main_v77 : FVec Ideal S1x64 .f32)
      = shapeCast S1x64 (shapeCast S64 (extractStridedSlice S1x64 ![3, 0] (W main_arg5) slices_S4x64_S1x64_3_0) shapeCasts_S1x64_S64) shapeCasts_S64_S1x64 := by
    show StableHlo.after (hostOps4 (F := Ideal)) W (Proc.devRef .tc main_v77) = _
    after_results
    rfl
  rw [e]
  exact sliceRow_apply _ _ _ 3 rfl rfl k

theorem host4_w2 (j k : Fin 64) : StableHlo.after (hostOps4 (F := Ideal)) W main_v84 (ix2 j k) = W main_arg6 (ix3 3 j k) := by
  have e : (StableHlo.after (hostOps4 (F := Ideal)) W main_v84 : FVec Ideal S64x64 .f32)
      = shapeCast S64x64 (extractStridedSlice S1x64x64 ![3, 0, 0] (W main_arg6) slices_S4x64x64_S1x64x64_3_0_0) shapeCasts_S1x64x64_S64x64 := by
    show StableHlo.after (hostOps4 (F := Ideal)) W (Proc.devRef .tc main_v84) = _
    after_results
    rfl
  rw [e]
  exact sliceMat_apply _ _ _ 3 rfl rfl rfl j k

theorem host4_b2 (k : Fin 64) : StableHlo.after (hostOps4 (F := Ideal)) W main_v80 (ix2 0 k) = W main_arg7 (ix2 3 k) := by
  have e : (StableHlo.after (hostOps4 (F := Ideal)) W main_v80 : FVec Ideal S1x64 .f32)
      = shapeCast S1x64 (shapeCast S64 (extractStridedSlice S1x64 ![3, 0] (W main_arg7) slices_S4x64_S1x64_3_0) shapeCasts_S1x64_S64) shapeCasts_S64_S1x64 := by
    show StableHlo.after (hostOps4 (F := Ideal)) W (Proc.devRef .tc main_v80) = _
    after_results
    rfl
  rw [e]
  exact sliceRow_apply _ _ _ 3 rfl rfl k

theorem nary5_result {x a b c d y : Ref sig .tc}
    (f : ((k : Fin 5) → ((![x, a, b, c, d] : Fin 5 → Ref sig .tc) k).ty.Contents (Elt Ideal)) → y.ty.Contents (Elt Ideal)) (hxs hy)
    (V : Valuation τ sig (Elt Ideal)) :
    (StableHlo.nary (τ := τ) ![x, a, b, c, d] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) := by
  rw [StableHlo.nary_result]; congr 1; funext k; fin_cases k <;> rfl

def lift1 (x : FVec Ideal S65536x64 .f32) : FVec Ideal S1x65536x64 .f32 :=
  broadcastInDim S1x65536x64 ![1, 2] bcast_S65536x64_S1x65536x64_1_2 x

theorem lift1_apply (x : FVec Ideal S65536x64 .f32) (n : Fin 65536) (h : Fin 64) : lift1 x (ix3 0 n h) = x (ix2 n h) := by
  unfold lift1
  exact broadcastInDim_apply _ bcast_S65536x64_S1x65536x64_1_2 x (ix3 0 n h) (ix2 n h) (fun a => match a with
    | ⟨0, _⟩ => by show n.val = if (65536 : Nat) = 1 then 0 else n.val; rw [if_neg (by decide)]
    | ⟨1, _⟩ => by show h.val = if (64 : Nat) = 1 then 0 else h.val; rw [if_neg (by decide)])

set_option maxHeartbeats 4000000 in
theorem after5_v91_eq : (StableHlo.after (hostOps5 (F := Ideal)) W main_v91 : FVec Ideal S5x65536x64 .f32)
    = concatenate S5x65536x64 0 [⟨S1x65536x64, lift1 (W main_v1)⟩, ⟨S1x65536x64, lift1 (W main_v22)⟩, ⟨S1x65536x64, lift1 (W main_v43)⟩,
        ⟨S1x65536x64, lift1 (W main_v64)⟩, ⟨S1x65536x64, lift1 (W main_v85)⟩]
        concatenates_S1x65536x64_S1x65536x64_S1x65536x64_S1x65536x64_S1x65536x64_S5x65536x64_d0 := by
  show StableHlo.after (hostOps5 (F := Ideal)) W (Proc.devRef .tc main_v91) = _
  simp only [StableHlo.after_cons, StableHlo.after_nil]
  rw [reshape_result_ne]; rotate_left; decide
  rw [nary5_result]
  repeat (first | rw [unary_result] | (rw [unary_result_ne]; rotate_left; decide))
  rfl

theorem host5_feats (l : Fin 5) (n : Fin 65536) (h : Fin 64) :
    StableHlo.after (hostOps5 (F := Ideal)) W main_v91 (ix3 l n h)
      = Cert.Spec.stack5 (W main_v1) (W main_v22) (W main_v43) (W main_v64) (W main_v85) l n h := by
  rw [after5_v91_eq]
  match l with
  | 0 =>
    refine (concatenate_apply_piece (0 : Fin S5x65536x64.rank) _ _ (ix3 0 n h) 0 (by show (0 : Nat) < 5; omega) S1x65536x64 (lift1 (W main_v1)) rfl rfl 0 rfl
      (ix3 0 n h) ?_ ?_).trans (lift1_apply _ n h)
    · intro b hb; match b with
      | ⟨0, _⟩ => exact absurd rfl hb
      | ⟨1, _⟩ => rfl
      | ⟨2, _⟩ => rfl
    · rfl
  | 1 =>
    refine (concatenate_apply_piece (0 : Fin S5x65536x64.rank) _ _ (ix3 1 n h) 1 (by show (1 : Nat) < 5; omega) S1x65536x64 (lift1 (W main_v22)) rfl rfl 1 rfl
      (ix3 0 n h) ?_ ?_).trans (lift1_apply _ n h)
    · intro b hb; match b with
      | ⟨0, _⟩ => exact absurd rfl hb
      | ⟨1, _⟩ => rfl
      | ⟨2, _⟩ => rfl
    · rfl
  | 2 =>
    refine (concatenate_apply_piece (0 : Fin S5x65536x64.rank) _ _ (ix3 2 n h) 2 (by show (2 : Nat) < 5; omega) S1x65536x64 (lift1 (W main_v43)) rfl rfl 2 rfl
      (ix3 0 n h) ?_ ?_).trans (lift1_apply _ n h)
    · intro b hb; match b with
      | ⟨0, _⟩ => exact absurd rfl hb
      | ⟨1, _⟩ => rfl
      | ⟨2, _⟩ => rfl
    · rfl
  | 3 =>
    refine (concatenate_apply_piece (0 : Fin S5x65536x64.rank) _ _ (ix3 3 n h) 3 (by show (3 : Nat) < 5; omega) S1x65536x64 (lift1 (W main_v64)) rfl rfl 3 rfl
      (ix3 0 n h) ?_ ?_).trans (lift1_apply _ n h)
    · intro b hb; match b with
      | ⟨0, _⟩ => exact absurd rfl hb
      | ⟨1, _⟩ => rfl
      | ⟨2, _⟩ => rfl
    · rfl
  | 4 =>
    refine (concatenate_apply_piece (0 : Fin S5x65536x64.rank) _ _ (ix3 4 n h) 4 (by show (4 : Nat) < 5; omega) S1x65536x64 (lift1 (W main_v85)) rfl rfl 4 rfl
      (ix3 0 n h) ?_ ?_).trans (lift1_apply _ n h)
    · intro b hb; match b with
      | ⟨0, _⟩ => exact absurd rfl hb
      | ⟨1, _⟩ => rfl
      | ⟨2, _⟩ => rfl
    · rfl

theorem host5_bias (l : Fin 5) (k : Fin 10) : StableHlo.after (hostOps5 (F := Ideal)) W main_v92 (ix3 l 0 k) = W main_arg9 (ix2 l k) := by
  have e : (StableHlo.after (hostOps5 (F := Ideal)) W main_v92 : FVec Ideal S5x1x10 .f32) = shapeCast S5x1x10 (W main_arg9) shapeCasts_S5x10_S5x1x10 := by
    show StableHlo.after (hostOps5 (F := Ideal)) W (Proc.devRef .tc main_v92) = _
    after_results
    rfl
  rw [e]
  exact shapeCast_apply _ shapeCasts_S5x10_S5x1x10 _ _ (by rewrite [Shape.rowMajor_val_three, Shape.rowMajor_val_two]; show l.val * 10 + k.val = (l.val * 1 + 0) * 10 + k.val; omega)

end Cert.KernelIdeal.HandValue
-- ==== Proof.Ref.Fc1.lean ====
/- The reference's input projection is x · w + b entry by entry. -/
import proofs.«401991_j17171279249890_1_alg».proof.Proof.Gen.ReferenceIdeal.Read
import proofs.«401991_j17171279249890_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx

theorem fc1_lhs (n : Fin 65536) (h : Fin 64) (k : Fin 128) : lidx_main_v0 (ix2 n h) k = ix2 n k :=
  funext fun a => Fin.ext (by match a with | ⟨0, _⟩ => rfl | ⟨1, _⟩ => rfl)

theorem fc1_rhs (n : Fin 65536) (h : Fin 64) (k : Fin 128) : ridx_main_v0 (ix2 n h) k = ix2 k h :=
  funext fun a => Fin.ext (by match a with | ⟨0, _⟩ => rfl | ⟨1, _⟩ => rfl)

theorem fc1_bias (n : Fin 65536) (h : Fin 64) : idx_main_v1 (idx_main_v2 (ix2 n h)) = ix1 h :=
  funext fun a => Fin.ext (by match a with | ⟨0, _⟩ => rfl)

theorem ref_fc1 (x0 : (⟨S65536x128, .f32⟩ : BufTy).Contents (Elt Ideal)) (x2 : (⟨S128x64, .f32⟩ : BufTy).Contents (Elt Ideal))
    (x3 : (⟨S64, .f32⟩ : BufTy).Contents (Elt Ideal)) :
    val_main_v3 (F := Ideal) x0 x2 x3 = Cert.Spec.fc1 x0 x2 (fun k => x3 (ix1 k)) := by
  funext i
  obtain ⟨n, h, rfl⟩ : ∃ (n : Fin 65536) (h : Fin 64), i = ix2 n h := ⟨i 0, i 1, eq_ix2 i⟩
  rw [val_main_v3_apply, val_main_v0_apply, val_main_v2_apply, val_main_v1_apply]
  simp only [fc1_lhs, fc1_rhs, fc1_bias, Ideal.addf_def]
  rfl

end Cert.ReferenceIdeal.RefSpec

end
-- ==== Proof.Ref.LayerLaw.lean ====
/- One layer as a chain of whole-array stages: if each stage relates to the one before as the layer's operations do, the last is the specification's layer. -/
import proofs.«401991_j17171279249890_1_alg».proof.Proof.Spec

noncomputable section

namespace Cert.ReferenceIdeal.RefSpec

open Idealize.ShloMosaic Idealize.ShloMosaic.ValueIdx Cert.Spec

theorem mlp_of_stages
    {xin agg : Mat 65536 64} {nn : Fin 65536 → EReal}
    {w1 w2 : Fin 64 → Fin 64 → EReal} {b1 b2 : Fin 64 → EReal}
    {s d1 B1 p1 z0 hd d2 B2 p2 NN q z1 r out : Mat 65536 64} {W1 W2 : Mat 64 64}
    {L1 L2 : (⟨2, ![65536, 64]⟩ : Shape).Idx → Fin 64 → (⟨2, ![65536, 64]⟩ : Shape).Idx}
    {R1 R2 : (⟨2, ![65536, 64]⟩ : Shape).Idx → Fin 64 → (⟨2, ![64, 64]⟩ : Shape).Idx}
    (hL1 : ∀ (n : Fin 65536) (h k : Fin 64), L1 (ix2 n h) k = ix2 n k)
    (hR1 : ∀ (n : Fin 65536) (h k : Fin 64), R1 (ix2 n h) k = ix2 k h)
    (hL2 : ∀ (n : Fin 65536) (h k : Fin 64), L2 (ix2 n h) k = ix2 n k)
    (hR2 : ∀ (n : Fin 65536) (h k : Fin 64), R2 (ix2 n h) k = ix2 k h)
    (hs : ∀ i, s i = xin i + agg i)
    (hW1 : ∀ j k : Fin 64, W1 (ix2 j k) = w1 j k)
    (hd1 : ∀ i, d1 i = ∑ k : Fin 64, s (L1 i k) * W1 (R1 i k))
    (hB1 : ∀ (n : Fin 65536) (k : Fin 64), B1 (ix2 n k) = b1 k)
    (hp1 : ∀ i, p1 i = d1 i + B1 i)
    (hz0 : ∀ i, z0 i = 0)
    (hhd : ∀ i, hd i = max (p1 i) (z0 i))
    (hW2 : ∀ j k : Fin 64, W2 (ix2 j k) = w2 j k)
    (hd2 : ∀ i, d2 i = ∑ k : Fin 64, hd (L2 i k) * W2 (R2 i k))
    (hB2 : ∀ (n : Fin 65536) (k : Fin 64), B2 (ix2 n k) = b2 k)
    (hp2 : ∀ i, p2 i = d2 i + B2 i)
    (hNN : ∀ (n : Fin 65536) (h : Fin 64), NN (ix2 n h) = nn n)
    (hq : ∀ i, q i = p2 i * NN i)
    (hz1 : ∀ i, z1 i = 0)
    (hr : ∀ i, r i = max (q i) (z1 i))
    (hout : ∀ i, out i = r i + xin i) :
    out = Cert.Spec.mlp xin agg nn w1 b1 w2 b2 := by
  funext i
  obtain ⟨n, h, rfl⟩ : ∃ (n : Fin 65536) (h : Fin 64), i = ix2 n h := ⟨i 0, i 1, eq_ix2 i⟩
  have hidden_eq : ∀ k : Fin 64, hd (ix2 n k) = Cert.Spec.hidden xin agg w1 b1 n k := by
    intro k
    rw [hhd, hz0, hp1, hB1, hd1]
    unfold Cert.Spec.hidden
    refine congrArg (fun t => max (t + b1 k) 0) (Finset.sum_congr rfl fun j _ => ?_)
    rw [hL1, hR1, hs, hW1]
  rw [hout, hr, hz1, hq, hNN, hp2, hB2, hd2]
  unfold Cert.Spec.mlp
  refine congrArg (fun t => max ((t + b2 h) * nn n) 0 + xin (ix2 n h)) (Finset.sum_congr rfl fun k _ => ?_)
  rw [hL2, hR2, hidden_eq, hW2]

end Cert.ReferenceIdeal.RefSpec

end
-- ==== Proof.Ref.Layers.lean ====
/- The reference's four layers are the specification's. -/
import proofs.«401991_j17171279249890_1_alg».proof.Proof.Gen.ReferenceIdeal.Read
import proofs.«401991_j17171279249890_1_alg».proof.Proof.Spec
import proofs.«401991_j17171279249890_1_alg».proof.Proof.Ref.LayerLaw

noncomputable section

namespace Cert.ReferenceIdeal.RefSpec

open Cert.ReferenceIdeal Cert.ReferenceIdeal.Gen Cert.ReferenceIdeal.Read Idealize.ShloMosaic Idealize.ShloMosaic.ValueIdx

theorem flat64_row (j k : Fin 64) : (j.val * 64 + k.val) / 64 % 64 = j.val := by
  have hj := j.isLt; have hk := k.isLt; omega

theorem flat64_col (j k : Fin 64) : (j.val * 64 + k.val) % 64 = k.val := by
  have hj := j.isLt; have hk := k.isLt; omega

theorem lane64 (k : Fin 64) : k.val % 64 = k.val := Nat.mod_eq_of_lt k.isLt

theorem lhs_layer (n : Fin 65536) (h k : Fin 64) : lidx_main_v17 (ix2 n h) k = ix2 n k :=
  funext fun a => Fin.ext (by match a with | ⟨0, _⟩ => rfl | ⟨1, _⟩ => rfl)

theorem rhs_layer (n : Fin 65536) (h k : Fin 64) : ridx_main_v17 (ix2 n h) k = ix2 k h :=
  funext fun a => Fin.ext (by match a with | ⟨0, _⟩ => rfl | ⟨1, _⟩ => rfl)

theorem w1_layer0 (x4 : (⟨S4x64x64, .f32⟩ : BufTy).Contents (Elt Ideal)) (j k : Fin 64) :
    val_main_v16 (F := Ideal) x4 (ix2 j k) = x4 (ix3 0 j k) := by
  rw [val_main_v16_apply, val_main_v15_apply]
  exact congrArg x4 (funext fun a => Fin.ext (by
    match a with
    | ⟨0, _⟩ => rfl
    | ⟨1, _⟩ => exact flat64_row j k
    | ⟨2, _⟩ => exact flat64_col j k))

theorem b1_layer0 (x5 : (⟨S4x64, .f32⟩ : BufTy).Contents (Elt Ideal)) (n : Fin 65536) (k : Fin 64) :
    val_main_v21 (F := Ideal) x5 (ix2 n k) = x5 (ix2 0 k) := by
  rw [val_main_v21_apply, val_main_v20_apply, val_main_v19_apply, val_main_v18_apply]
  exact congrArg x5 (funext fun a => Fin.ext (by
    match a with
    | ⟨0, _⟩ => rfl
    | ⟨1, _⟩ => exact lane64 k))

theorem nn_layer (x1 : (⟨S65536x1, .f32⟩ : BufTy).Contents (Elt Ideal)) (n : Fin 65536) (h : Fin 64) :
    val_main_v32 (F := Ideal) x1 (ix2 n h) = x1 (ix2 n 0) := by
  rw [val_main_v32_apply]
  exact congrArg x1 (funext fun a => Fin.ext (by match a with | ⟨0, _⟩ => rfl | ⟨1, _⟩ => rfl))

theorem zero_layer (i : S65536x64.Idx) : val_main_call0_v0 (F := Ideal) i = 0 := by
  rw [val_main_call0_v0_apply, val_main_call0_cst_apply]
  exact Ideal.ofBits_zero_f32

theorem ref_mlp0 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v35 (F := Ideal) x0 x1 x2 x3 x4 x5 x6 x7 x10 x11 =
      Cert.Spec.mlp (val_main_v3 (F := Ideal) x0 x2 x3) (val_main_v13 (F := Ideal) x0 x2 x3 x10 x11)
        (fun n => x1 (ix2 n 0)) (fun j k => x4 (ix3 0 j k)) (fun k => x5 (ix2 0 k))
        (fun j k => x6 (ix3 0 j k)) (fun k => x7 (ix2 0 k)) :=
  mlp_of_stages
    (s := val_main_v14 (F := Ideal) x0 x2 x3 x10 x11) (W1 := val_main_v16 (F := Ideal) x4)
    (d1 := val_main_v17 (F := Ideal) x0 x2 x3 x4 x10 x11) (B1 := val_main_v21 (F := Ideal) x5)
    (p1 := val_main_v22 (F := Ideal) x0 x2 x3 x4 x5 x10 x11) (z0 := val_main_call0_v0 (F := Ideal))
    (hd := val_main_v23 (F := Ideal) x0 x2 x3 x4 x5 x10 x11) (W2 := val_main_v25 (F := Ideal) x6)
    (d2 := val_main_v26 (F := Ideal) x0 x2 x3 x4 x5 x6 x10 x11) (B2 := val_main_v30 (F := Ideal) x7)
    (p2 := val_main_v31 (F := Ideal) x0 x2 x3 x4 x5 x6 x7 x10 x11) (NN := val_main_v32 (F := Ideal) x1)
    (q := val_main_v33 (F := Ideal) x0 x1 x2 x3 x4 x5 x6 x7 x10 x11) (z1 := val_main_call1_v0 (F := Ideal))
    (r := val_main_v34 (F := Ideal) x0 x1 x2 x3 x4 x5 x6 x7 x10 x11)
    (L1 := lidx_main_v17) (R1 := ridx_main_v17) (L2 := lidx_main_v26) (R2 := ridx_main_v26)
    lhs_layer rhs_layer lhs_layer rhs_layer
    (fun i => val_main_v14_apply x0 x2 x3 x10 x11 i)
    (w1_layer0 x4)
    (fun i => val_main_v17_apply x0 x2 x3 x4 x10 x11 i)
    (b1_layer0 x5)
    (fun i => val_main_v22_apply x0 x2 x3 x4 x5 x10 x11 i)
    zero_layer
    (fun i => val_main_v23_apply x0 x2 x3 x4 x5 x10 x11 i)
    (w1_layer0 x6)
    (fun i => val_main_v26_apply x0 x2 x3 x4 x5 x6 x10 x11 i)
    (b1_layer0 x7)
    (fun i => val_main_v31_apply x0 x2 x3 x4 x5 x6 x7 x10 x11 i)
    (nn_layer x1)
    (fun i => val_main_v33_apply x0 x1 x2 x3 x4 x5 x6 x7 x10 x11 i)
    zero_layer
    (fun i => val_main_v34_apply x0 x1 x2 x3 x4 x5 x6 x7 x10 x11 i)
    (fun i => val_main_v35_apply x0 x1 x2 x3 x4 x5 x6 x7 x10 x11 i)

theorem w1_layer1 (x4 : (⟨S4x64x64, .f32⟩ : BufTy).Contents (Elt Ideal)) (j k : Fin 64) :
    val_main_v48 (F := Ideal) x4 (ix2 j k) = x4 (ix3 1 j k) := by
  rw [val_main_v48_apply, val_main_v47_apply]
  exact congrArg x4 (funext fun a => Fin.ext (by
    match a with
    | ⟨0, _⟩ => rfl
    | ⟨1, _⟩ => exact flat64_row j k
    | ⟨2, _⟩ => exact flat64_col j k))

theorem b1_layer1 (x5 : (⟨S4x64, .f32⟩ : BufTy).Contents (Elt Ideal)) (n : Fin 65536) (k : Fin 64) :
    val_main_v53 (F := Ideal) x5 (ix2 n k) = x5 (ix2 1 k) := by
  rw [val_main_v53_apply, val_main_v52_apply, val_main_v51_apply, val_main_v50_apply]
  exact congrArg x5 (funext fun a => Fin.ext (by
    match a with
    | ⟨0, _⟩ => rfl
    | ⟨1, _⟩ => exact lane64 k))

theorem ref_mlp1 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v67 (F := Ideal) x0 x1 x2 x3 x4 x5 x6 x7 x10 x11 =
      Cert.Spec.mlp (val_main_v35 (F := Ideal) x0 x1 x2 x3 x4 x5 x6 x7 x10 x11) (val_main_v45 (F := Ideal) x0 x1 x2 x3 x4 x5 x6 x7 x10 x11)
        (fun n => x1 (ix2 n 0)) (fun j k => x4 (ix3 1 j k)) (fun k => x5 (ix2 1 k))
        (fun j k => x6 (ix3 1 j k)) (fun k => x7 (ix2 1 k)) :=
  mlp_of_stages
    (s := val_main_v46 (F := Ideal) x0 x1 x2 x3 x4 x5 x6 x7 x10 x11) (W1 := val_main_v48 (F := Ideal) x4)
    (d1 := val_main_v49 (F := Ideal) x0 x1 x2 x3 x4 x5 x6 x7 x10 x11) (B1 := val_main_v53 (F := Ideal) x5)
    (p1 := val_main_v54 (F := Ideal) x0 x1 x2 x3 x4 x5 x6 x7 x10 x11) (z0 := val_main_call2_v0 (F := Ideal))
    (hd := val_main_v55 (F := Ideal) x0 x1 x2 x3 x4 x5 x6 x7 x10 x11) (W2 := val_main_v57 (F := Ideal) x6)
    (d2 := val_main_v58 (F := Ideal) x0 x1 x2 x3 x4 x5 x6 x7 x10 x11) (B2 := val_main_v62 (F := Ideal) x7)
    (p2 := val_main_v63 (F := Ideal) x0 x1 x2 x3 x4 x5 x6 x7 x10 x11) (NN := val_main_v64 (F := Ideal) x1)
    (q := val_main_v65 (F := Ideal) x0 x1 x2 x3 x4 x5 x6 x7 x10 x11) (z1 := val_main_call3_v0 (F := Ideal))
    (r := val_main_v66 (F := Ideal) x0 x1 x2 x3 x4 x5 x6 x7 x10 x11)
    (L1 := lidx_main_v49) (R1 := ridx_main_v49) (L2 := lidx_main_v58) (R2 := ridx_main_v58)
    lhs_layer rhs_layer lhs_layer rhs_layer
    (fun i => val_main_v46_apply x0 x1 x2 x3 x4 x5 x6 x7 x10 x11 i)
    (w1_layer1 x4)
    (fun i => val_main_v49_apply x0 x1 x2 x3 x4 x5 x6 x7 x10 x11 i)
    (b1_layer1 x5)
    (fun i => val_main_v54_apply x0 x1 x2 x3 x4 x5 x6 x7 x10 x11 i)
    zero_layer
    (fun i => val_main_v55_apply x0 x1 x2 x3 x4 x5 x6 x7 x10 x11 i)
    (w1_layer1 x6)
    (fun i => val_main_v58_apply x0 x1 x2 x3 x4 x5 x6 x7 x10 x11 i)
    (b1_layer1 x7)
    (fun i => val_main_v63_apply x0 x1 x2 x3 x4 x5 x6 x7 x10 x11 i)
    (nn_layer x1)
    (fun i => val_main_v65_apply x0 x1 x2 x3 x4 x5 x6 x7 x10 x11 i)
    zero_layer
    (fun i => val_main_v66_apply x0 x1 x2 x3 x4 x5 x6 x7 x10 x11 i)
    (fun i => val_main_v67_apply x0 x1 x2 x3 x4 x5 x6 x7 x10 x11 i)

theorem w1_layer2 (x4 : (⟨S4x64x64, .f32⟩ : BufTy).Contents (Elt Ideal)) (j k : Fin 64) :
    val_main_v80 (F := Ideal) x4 (ix2 j k) = x4 (ix3 2 j k) := by
  rw [val_main_v80_apply, val_main_v79_apply]
  exact congrArg x4 (funext fun a => Fin.ext (by
    match a with
    | ⟨0, _⟩ => rfl
    | ⟨1, _⟩ => exact flat64_row j k
    | ⟨2, _⟩ => exact flat64_col j k))

theorem b1_layer2 (x5 : (⟨S4x64, .f32⟩ : BufTy).Contents (Elt Ideal)) (n : Fin 65536) (k : Fin 64) :
    val_main_v85 (F := Ideal) x5 (ix2 n k) = x5 (ix2 2 k) := by
  rw [val_main_v85_apply, val_main_v84_apply, val_main_v83_apply, val_main_v82_apply]
  exact congrArg x5 (funext fun a => Fin.ext (by
    match a with
    | ⟨0, _⟩ => rfl
    | ⟨1, _⟩ => exact lane64 k))

theorem ref_mlp2 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v99 (F := Ideal) x0 x1 x2 x3 x4 x5 x6 x7 x10 x11 =
      Cert.Spec.mlp (val_main_v67 (F := Ideal) x0 x1 x2 x3 x4 x5 x6 x7 x10 x11) (val_main_v77 (F := Ideal) x0 x1 x2 x3 x4 x5 x6 x7 x10 x11)
        (fun n => x1 (ix2 n 0)) (fun j k => x4 (ix3 2 j k)) (fun k => x5 (ix2 2 k))
        (fun j k => x6 (ix3 2 j k)) (fun k => x7 (ix2 2 k)) :=
  mlp_of_stages
    (s := val_main_v78 (F := Ideal) x0 x1 x2 x3 x4 x5 x6 x7 x10 x11) (W1 := val_main_v80 (F := Ideal) x4)
    (d1 := val_main_v81 (F := Ideal) x0 x1 x2 x3 x4 x5 x6 x7 x10 x11) (B1 := val_main_v85 (F := Ideal) x5)
    (p1 := val_main_v86 (F := Ideal) x0 x1 x2 x3 x4 x5 x6 x7 x10 x11) (z0 := val_main_call4_v0 (F := Ideal))
    (hd := val_main_v87 (F := Ideal) x0 x1 x2 x3 x4 x5 x6 x7 x10 x11) (W2 := val_main_v89 (F := Ideal) x6)
    (d2 := val_main_v90 (F := Ideal) x0 x1 x2 x3 x4 x5 x6 x7 x10 x11) (B2 := val_main_v94 (F := Ideal) x7)
    (p2 := val_main_v95 (F := Ideal) x0 x1 x2 x3 x4 x5 x6 x7 x10 x11) (NN := val_main_v96 (F := Ideal) x1)
    (q := val_main_v97 (F := Ideal) x0 x1 x2 x3 x4 x5 x6 x7 x10 x11) (z1 := val_main_call5_v0 (F := Ideal))
    (r := val_main_v98 (F := Ideal) x0 x1 x2 x3 x4 x5 x6 x7 x10 x11)
    (L1 := lidx_main_v81) (R1 := ridx_main_v81) (L2 := lidx_main_v90) (R2 := ridx_main_v90)
    lhs_layer rhs_layer lhs_layer rhs_layer
    (fun i => val_main_v78_apply x0 x1 x2 x3 x4 x5 x6 x7 x10 x11 i)
    (w1_layer2 x4)
    (fun i => val_main_v81_apply x0 x1 x2 x3 x4 x5 x6 x7 x10 x11 i)
    (b1_layer2 x5)
    (fun i => val_main_v86_apply x0 x1 x2 x3 x4 x5 x6 x7 x10 x11 i)
    zero_layer
    (fun i => val_main_v87_apply x0 x1 x2 x3 x4 x5 x6 x7 x10 x11 i)
    (w1_layer2 x6)
    (fun i => val_main_v90_apply x0 x1 x2 x3 x4 x5 x6 x7 x10 x11 i)
    (b1_layer2 x7)
    (fun i => val_main_v95_apply x0 x1 x2 x3 x4 x5 x6 x7 x10 x11 i)
    (nn_layer x1)
    (fun i => val_main_v97_apply x0 x1 x2 x3 x4 x5 x6 x7 x10 x11 i)
    zero_layer
    (fun i => val_main_v98_apply x0 x1 x2 x3 x4 x5 x6 x7 x10 x11 i)
    (fun i => val_main_v99_apply x0 x1 x2 x3 x4 x5 x6 x7 x10 x11 i)

theorem w1_layer3 (x4 : (⟨S4x64x64, .f32⟩ : BufTy).Contents (Elt Ideal)) (j k : Fin 64) :
    val_main_v112 (F := Ideal) x4 (ix2 j k) = x4 (ix3 3 j k) := by
  rw [val_main_v112_apply, val_main_v111_apply]
  exact congrArg x4 (funext fun a => Fin.ext (by
    match a with
    | ⟨0, _⟩ => rfl
    | ⟨1, _⟩ => exact flat64_row j k
    | ⟨2, _⟩ => exact flat64_col j k))

theorem b1_layer3 (x5 : (⟨S4x64, .f32⟩ : BufTy).Contents (Elt Ideal)) (n : Fin 65536) (k : Fin 64) :
    val_main_v117 (F := Ideal) x5 (ix2 n k) = x5 (ix2 3 k) := by
  rw [val_main_v117_apply, val_main_v116_apply, val_main_v115_apply, val_main_v114_apply]
  exact congrArg x5 (funext fun a => Fin.ext (by
    match a with
    | ⟨0, _⟩ => rfl
    | ⟨1, _⟩ => exact lane64 k))

theorem ref_mlp3 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v131 (F := Ideal) x0 x1 x2 x3 x4 x5 x6 x7 x10 x11 =
      Cert.Spec.mlp (val_main_v99 (F := Ideal) x0 x1 x2 x3 x4 x5 x6 x7 x10 x11) (val_main_v109 (F := Ideal) x0 x1 x2 x3 x4 x5 x6 x7 x10 x11)
        (fun n => x1 (ix2 n 0)) (fun j k => x4 (ix3 3 j k)) (fun k => x5 (ix2 3 k))
        (fun j k => x6 (ix3 3 j k)) (fun k => x7 (ix2 3 k)) :=
  mlp_of_stages
    (s := val_main_v110 (F := Ideal) x0 x1 x2 x3 x4 x5 x6 x7 x10 x11) (W1 := val_main_v112 (F := Ideal) x4)
    (d1 := val_main_v113 (F := Ideal) x0 x1 x2 x3 x4 x5 x6 x7 x10 x11) (B1 := val_main_v117 (F := Ideal) x5)
    (p1 := val_main_v118 (F := Ideal) x0 x1 x2 x3 x4 x5 x6 x7 x10 x11) (z0 := val_main_call6_v0 (F := Ideal))
    (hd := val_main_v119 (F := Ideal) x0 x1 x2 x3 x4 x5 x6 x7 x10 x11) (W2 := val_main_v121 (F := Ideal) x6)
    (d2 := val_main_v122 (F := Ideal) x0 x1 x2 x3 x4 x5 x6 x7 x10 x11) (B2 := val_main_v126 (F := Ideal) x7)
    (p2 := val_main_v127 (F := Ideal) x0 x1 x2 x3 x4 x5 x6 x7 x10 x11) (NN := val_main_v128 (F := Ideal) x1)
    (q := val_main_v129 (F := Ideal) x0 x1 x2 x3 x4 x5 x6 x7 x10 x11) (z1 := val_main_call7_v0 (F := Ideal))
    (r := val_main_v130 (F := Ideal) x0 x1 x2 x3 x4 x5 x6 x7 x10 x11)
    (L1 := lidx_main_v113) (R1 := ridx_main_v113) (L2 := lidx_main_v122) (R2 := ridx_main_v122)
    lhs_layer rhs_layer lhs_layer rhs_layer
    (fun i => val_main_v110_apply x0 x1 x2 x3 x4 x5 x6 x7 x10 x11 i)
    (w1_layer3 x4)
    (fun i => val_main_v113_apply x0 x1 x2 x3 x4 x5 x6 x7 x10 x11 i)
    (b1_layer3 x5)
    (fun i => val_main_v118_apply x0 x1 x2 x3 x4 x5 x6 x7 x10 x11 i)
    zero_layer
    (fun i => val_main_v119_apply x0 x1 x2 x3 x4 x5 x6 x7 x10 x11 i)
    (w1_layer3 x6)
    (fun i => val_main_v122_apply x0 x1 x2 x3 x4 x5 x6 x7 x10 x11 i)
    (b1_layer3 x7)
    (fun i => val_main_v127_apply x0 x1 x2 x3 x4 x5 x6 x7 x10 x11 i)
    (nn_layer x1)
    (fun i => val_main_v129_apply x0 x1 x2 x3 x4 x5 x6 x7 x10 x11 i)
    zero_layer
    (fun i => val_main_v130_apply x0 x1 x2 x3 x4 x5 x6 x7 x10 x11 i)
    (fun i => val_main_v131_apply x0 x1 x2 x3 x4 x5 x6 x7 x10 x11 i)

end Cert.ReferenceIdeal.RefSpec

end
-- ==== Proof.Ref.Pool.lean ====
/- The reference's pooling scatter read at an index. -/
import proofs.«401991_j17171279249890_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Idealize.ShloMosaic Idealize.ShloMosaic.ValueIdx

abbrev poolDims : ScatterDims S512x64 S65536x1 S65536x64 := scatter_S512x64_S65536x1_S65536x64_1_0_0_1

theorem axis0_mem_map : (0 : Fin S512x64.rank) ∈ poolDims.scatterDimsToOperandDims := by decide
theorem axis1_not_mem_map : ¬ (1 : Fin S512x64.rank) ∈ poolDims.scatterDimsToOperandDims := by decide
theorem axis0_not_mem_kept : ¬ (0 : Fin S512x64.rank) ∈ poolDims.sKept := by decide
theorem axis1_mem_kept : (1 : Fin S512x64.rank) ∈ poolDims.sKept := by decide

theorem pool_start_row (n : Fin 65536) (h' : Fin 64) (idx : IVec S65536x1 32) :
    poolDims.start (ix2 n h') idx (0 : Fin S512x64.rank) = (idx (ix2 n 0)).toInt := by
  unfold ScatterDims.start
  rw [dif_pos axis0_mem_map]
  congr 2
  funext b
  refine Fin.ext ?_
  match b with
  | ⟨0, _⟩ => rfl
  | ⟨1, _⟩ => rfl

theorem pool_start_col (n : Fin 65536) (h' : Fin 64) (idx : IVec S65536x1 32) :
    poolDims.start (ix2 n h') idx (1 : Fin S512x64.rank) = 0 := by
  unfold ScatterDims.start
  rw [dif_neg axis1_not_mem_map]

theorem pool_window_row (n : Fin 65536) (h' : Fin 64) :
    poolDims.window (ix2 n h') (0 : Fin S512x64.rank) = 0 := by
  unfold ScatterDims.window
  rw [dif_neg axis0_not_mem_kept]

theorem pool_window_col (n : Fin 65536) (h' : Fin 64) :
    poolDims.window (ix2 n h') (1 : Fin S512x64.rank) = h'.val := by
  unfold ScatterDims.window
  rw [dif_pos axis1_mem_kept]
  rfl

theorem toInt_eq_iff (w : BitVec 32) (g : Fin 512) : w.toInt = (g.val : Int) ↔ w = BitVec.ofNat 32 g.val := by
  have hc := BitVec.toInt_eq_toNat_cond w
  have hlt : w.toNat < 2 ^ 32 := w.isLt
  have hg : g.val < 512 := g.isLt
  constructor
  · intro hw
    apply BitVec.eq_of_toNat_eq
    rw [BitVec.toNat_ofNat]
    split at hc <;> omega
  · intro hw
    have htn : w.toNat = g.val := by
      rw [hw, BitVec.toNat_ofNat]; omega
    split at hc <;> omega

theorem pool_resultIdx_iff (n : Fin 65536) (h' : Fin 64) (idx : IVec S65536x1 32) (g : Fin 512) (h : Fin 64) :
    poolDims.resultIdx? (ix2 n h') idx = some (ix2 g h) ↔ (idx (ix2 n 0)).toInt = (g.val : Int) ∧ h' = h := by
  have hs0 := pool_start_row n h' idx
  have hs1 := pool_start_col n h' idx
  have hw0 := pool_window_row n h'
  have hw1 := pool_window_col n h'
  have hg : g.val < 512 := g.isLt
  have hh : h.val < 64 := h.isLt
  have hh' : h'.val < 64 := h'.isLt
  unfold ScatterDims.resultIdx?
  split
  · rename_i hall
    constructor
    · intro hEq
      have hEq' := Option.some.inj hEq
      have e0 : (poolDims.start (ix2 n h') idx (0 : Fin S512x64.rank)
          + (poolDims.window (ix2 n h') (0 : Fin S512x64.rank) : Int)).toNat = g.val :=
        congrArg Fin.val (congrFun hEq' (0 : Fin S512x64.rank))
      have e1 : (poolDims.start (ix2 n h') idx (1 : Fin S512x64.rank)
          + (poolDims.window (ix2 n h') (1 : Fin S512x64.rank) : Int)).toNat = h.val :=
        congrArg Fin.val (congrFun hEq' (1 : Fin S512x64.rank))
      have a0 := (hall (0 : Fin S512x64.rank)).1
      rw [hs0, hw0] at e0 a0
      rw [hs1, hw1] at e1
      exact ⟨by omega, Fin.ext (by omega)⟩
    · rintro ⟨hi, rfl⟩
      congr 1
      funext a
      refine Fin.ext ?_
      match a with
      | ⟨0, _⟩ =>
        show (poolDims.start (ix2 n h') idx (0 : Fin S512x64.rank)
          + (poolDims.window (ix2 n h') (0 : Fin S512x64.rank) : Int)).toNat = g.val
        rw [hs0, hw0]; omega
      | ⟨1, _⟩ =>
        show (poolDims.start (ix2 n h') idx (1 : Fin S512x64.rank)
          + (poolDims.window (ix2 n h') (1 : Fin S512x64.rank) : Int)).toNat = h'.val
        rw [hs1, hw1]; omega
  · rename_i hnot
    constructor
    · intro hEq; exact absurd hEq (by simp)
    · rintro ⟨hi, rfl⟩
      exfalso; apply hnot
      intro a
      match a with
      | ⟨0, _⟩ =>
        show 0 ≤ poolDims.start (ix2 n h') idx (0 : Fin S512x64.rank)
            + (poolDims.window (ix2 n h') (0 : Fin S512x64.rank) : Int)
          ∧ poolDims.start (ix2 n h') idx (0 : Fin S512x64.rank)
            + (poolDims.window (ix2 n h') (0 : Fin S512x64.rank) : Int) < (512 : Int)
        rw [hs0, hw0]; omega
      | ⟨1, _⟩ =>
        show 0 ≤ poolDims.start (ix2 n h') idx (1 : Fin S512x64.rank)
            + (poolDims.window (ix2 n h') (1 : Fin S512x64.rank) : Int)
          ∧ poolDims.start (ix2 n h') idx (1 : Fin S512x64.rank)
            + (poolDims.window (ix2 n h') (1 : Fin S512x64.rank) : Int) < (64 : Int)
        rw [hs1, hw1]; omega

theorem scatterAdd_pool_apply (z : FVec Ideal S512x64 .f32) (idx : IVec S65536x1 32) (f : FVec Ideal S65536x64 .f32)
    (g : Fin 512) (h : Fin 64) :
    Host.scatterAdd (F := Ideal) poolDims z idx f (ix2 g h)
      = z (ix2 g h) + ∑ n : Fin 65536, if idx (ix2 n 0) = BitVec.ofNat 32 g.val then f (ix2 n h) else 0 := by
  unfold Host.scatterAdd
  rw [Ideal.hostScatterAdd_def]
  unfold Ideal.hostScatterAdd
  refine congrArg (fun t => z (ix2 g h) + t) ?_
  rw [Finset.sum_filter, sum_idx2]
  refine Finset.sum_congr rfl fun n _ => ?_
  simp only [pool_resultIdx_iff, toInt_eq_iff]
  by_cases hc : idx (ix2 n 0) = BitVec.ofNat 32 g.val
  · simp only [hc, true_and, Finset.sum_ite_eq', Finset.mem_univ, if_true]
  · simp only [hc, false_and, if_false, Finset.sum_const_zero]

theorem zeros_apply (i : S512x64.Idx) :
    broadcastInDim S512x64 ![] bcast_S_S512x64 (constant (F := Ideal) S_ .f32 0x00000000#32) i = 0 := by
  rw [broadcastInDim_apply _ bcast_S_S512x64 _ i ix0 (fun a => a.elim0), constant_apply, Ideal.ofBits_zero_f32]

theorem indicator_column_apply (ind : IVec S65536 32) (n : Fin 65536) :
    broadcastInDim S65536x1 ![0] bcast_S65536_S65536x1_0 ind (ix2 n 0) = ind (ix1 n) :=
  broadcastInDim_apply _ bcast_S65536_S65536x1_0 ind (ix2 n 0) (ix1 n) (fun a => match a with
    | ⟨0, _⟩ => by show n.val = if (65536 : Nat) = 1 then 0 else n.val; rw [if_neg (by decide)])

theorem pooled_apply (f : FVec Ideal S65536x64 .f32) (ind : IVec S65536 32) (g : Fin 512) (h : Fin 64) :
    Host.scatterAdd (F := Ideal) scatter_S512x64_S65536x1_S65536x64_1_0_0_1
        (broadcastInDim S512x64 ![] bcast_S_S512x64 (constant (F := Ideal) S_ .f32 0x00000000#32))
        (broadcastInDim S65536x1 ![0] bcast_S65536_S65536x1_0 ind) f (ix2 g h)
      = ∑ n : Fin 65536, if ind (ix1 n) = BitVec.ofNat 32 g.val then f (ix2 n h) else 0 := by
  rw [scatterAdd_pool_apply, zeros_apply, zero_add]
  refine Finset.sum_congr rfl fun n _ => ?_
  rw [indicator_column_apply]

end Cert.ReferenceIdeal.RefSpec

end
-- ==== Proof.Ref.Score.lean ====
/- The reference's score is the specification's. -/
import proofs.«401991_j17171279249890_1_alg».proof.Proof.Gen.ReferenceIdeal.Read
import proofs.«401991_j17171279249890_1_alg».proof.Proof.Spec
import proofs.«401991_j17171279249890_1_alg».proof.Proof.Ref.Pool

noncomputable section

namespace Cert.ReferenceIdeal.RefSpec

open Cert.ReferenceIdeal Cert.ReferenceIdeal.Gen Cert.ReferenceIdeal.Read Idealize.ShloMosaic Idealize.ShloMosaic.ValueIdx

variable (x0 : (⟨S65536x128, .f32⟩ : BufTy).Contents (Elt Ideal)) (x1 : (⟨S65536x1, .f32⟩ : BufTy).Contents (Elt Ideal))
  (x2 : (⟨S128x64, .f32⟩ : BufTy).Contents (Elt Ideal)) (x3 : (⟨S64, .f32⟩ : BufTy).Contents (Elt Ideal))
  (x4 : (⟨S4x64x64, .f32⟩ : BufTy).Contents (Elt Ideal)) (x5 : (⟨S4x64, .f32⟩ : BufTy).Contents (Elt Ideal))
  (x6 : (⟨S4x64x64, .f32⟩ : BufTy).Contents (Elt Ideal)) (x7 : (⟨S4x64, .f32⟩ : BufTy).Contents (Elt Ideal))
  (x8 : (⟨S5x64x10, .f32⟩ : BufTy).Contents (Elt Ideal)) (x9 : (⟨S5x10, .f32⟩ : BufTy).Contents (Elt Ideal))
  (x10 x11 : (⟨S1048576, .i32⟩ : BufTy).Contents (Elt Ideal)) (x12 : (⟨S65536, .i32⟩ : BufTy).Contents (Elt Ideal))

theorem score_apply (f : Fin 5 → Fin 65536 → Fin 64 → EReal) (ind : Fin 65536 → BitVec 32)
    (sw : Fin 5 → Fin 64 → Fin 10 → EReal) (sb : Fin 5 → Fin 10 → EReal) (g : Fin 512) (c : Fin 10) :
    Cert.Spec.score f ind sw sb (ix2 g c)
      = ∑ l : Fin 5, ((∑ h : Fin 64, Cert.Spec.pooled f ind l g h * sw l h c) + sb l c) := rfl

theorem pooled_stack5_0 (f0 f1 f2 f3 f4 : Cert.Spec.Mat 65536 64) (ind : Fin 65536 → BitVec 32) (g : Fin 512) (h : Fin 64) :
    Cert.Spec.pooled (Cert.Spec.stack5 f0 f1 f2 f3 f4) ind 0 g h
      = ∑ n : Fin 65536, if ind n = BitVec.ofNat 32 g.val then f0 (ix2 n h) else 0 := rfl

theorem pooled_stack5_1 (f0 f1 f2 f3 f4 : Cert.Spec.Mat 65536 64) (ind : Fin 65536 → BitVec 32) (g : Fin 512) (h : Fin 64) :
    Cert.Spec.pooled (Cert.Spec.stack5 f0 f1 f2 f3 f4) ind 1 g h
      = ∑ n : Fin 65536, if ind n = BitVec.ofNat 32 g.val then f1 (ix2 n h) else 0 := rfl

theorem pooled_stack5_2 (f0 f1 f2 f3 f4 : Cert.Spec.Mat 65536 64) (ind : Fin 65536 → BitVec 32) (g : Fin 512) (h : Fin 64) :
    Cert.Spec.pooled (Cert.Spec.stack5 f0 f1 f2 f3 f4) ind 2 g h
      = ∑ n : Fin 65536, if ind n = BitVec.ofNat 32 g.val then f2 (ix2 n h) else 0 := rfl

theorem pooled_stack5_3 (f0 f1 f2 f3 f4 : Cert.Spec.Mat 65536 64) (ind : Fin 65536 → BitVec 32) (g : Fin 512) (h : Fin 64) :
    Cert.Spec.pooled (Cert.Spec.stack5 f0 f1 f2 f3 f4) ind 3 g h
      = ∑ n : Fin 65536, if ind n = BitVec.ofNat 32 g.val then f3 (ix2 n h) else 0 := rfl

theorem pooled_stack5_4 (f0 f1 f2 f3 f4 : Cert.Spec.Mat 65536 64) (ind : Fin 65536 → BitVec 32) (g : Fin 512) (h : Fin 64) :
    Cert.Spec.pooled (Cert.Spec.stack5 f0 f1 f2 f3 f4) ind 4 g h
      = ∑ n : Fin 65536, if ind n = BitVec.ofNat 32 g.val then f4 (ix2 n h) else 0 := rfl

theorem score_init (i : S512x10.Idx) : val_main_v132 (F := Ideal) i = 0 := by
  rw [val_main_v132_apply, val_main_cst_10_apply, Ideal.ofBits_def, Ideal.ofBits_zero_f32]

theorem layer0_dot (g : Fin 512) (c : Fin 10) :
    val_main_v138 (F := Ideal) x0 x2 x3 x8 x12 (ix2 g c)
      = ∑ h : Fin 64, (∑ n : Fin 65536, if x12 (ix1 n) = BitVec.ofNat 32 g.val
          then val_main_v3 (F := Ideal) x0 x2 x3 (ix2 n h) else 0) * x8 (ix3 0 h c) := by
  rw [val_main_v138_apply]
  refine Finset.sum_congr rfl fun h _ => ?_
  have hl : lidx_main_v138 (ix2 g c) h = ix2 g h :=
    funext fun a => Fin.ext (by match a with | ⟨0, _⟩ => rfl | ⟨1, _⟩ => rfl)
  have hw : idx_main_v136 (idx_main_v137 (ridx_main_v138 (ix2 g c) h)) = ix3 0 h c :=
    funext fun a => Fin.ext (by
      have hh := h.isLt; have hc := c.isLt
      match a with
      | ⟨0, _⟩ => rfl
      | ⟨1, _⟩ => show (h.val * 10 + c.val) / 10 % 64 = h.val; omega
      | ⟨2, _⟩ => show (h.val * 10 + c.val) % 10 = c.val; omega)
  rw [hl, val_main_v137_apply, val_main_v136_apply, hw]
  unfold val_main_v135 val_main_v133 val_main_cst_11 val_main_v134
  rw [pooled_apply]

theorem layer0_bias (g : Fin 512) (c : Fin 10) : val_main_v143 (F := Ideal) x9 (ix2 g c) = x9 (ix2 0 c) := by
  rw [val_main_v143_apply, val_main_v142_apply, val_main_v141_apply, val_main_v140_apply]
  refine congrArg x9 (funext fun a => Fin.ext ?_)
  have hc := c.isLt
  match a with
  | ⟨0, _⟩ => rfl
  | ⟨1, _⟩ => show c.val % 10 = c.val; omega

theorem layer1_dot (g : Fin 512) (c : Fin 10) :
    val_main_v150 (F := Ideal) x0 x1 x2 x3 x4 x5 x6 x7 x8 x10 x11 x12 (ix2 g c)
      = ∑ h : Fin 64, (∑ n : Fin 65536, if x12 (ix1 n) = BitVec.ofNat 32 g.val
          then val_main_v35 (F := Ideal) x0 x1 x2 x3 x4 x5 x6 x7 x10 x11 (ix2 n h) else 0) * x8 (ix3 1 h c) := by
  rw [val_main_v150_apply]
  refine Finset.sum_congr rfl fun h _ => ?_
  have hl : lidx_main_v150 (ix2 g c) h = ix2 g h :=
    funext fun a => Fin.ext (by match a with | ⟨0, _⟩ => rfl | ⟨1, _⟩ => rfl)
  have hw : idx_main_v148 (idx_main_v149 (ridx_main_v150 (ix2 g c) h)) = ix3 1 h c :=
    funext fun a => Fin.ext (by
      have hh := h.isLt; have hc := c.isLt
      match a with
      | ⟨0, _⟩ => rfl
      | ⟨1, _⟩ => show (h.val * 10 + c.val) / 10 % 64 = h.val; omega
      | ⟨2, _⟩ => show (h.val * 10 + c.val) % 10 = c.val; omega)
  rw [hl, val_main_v149_apply, val_main_v148_apply, hw]
  unfold val_main_v147 val_main_v145 val_main_cst_12 val_main_v146
  rw [pooled_apply]

theorem layer1_bias (g : Fin 512) (c : Fin 10) : val_main_v155 (F := Ideal) x9 (ix2 g c) = x9 (ix2 1 c) := by
  rw [val_main_v155_apply, val_main_v154_apply, val_main_v153_apply, val_main_v152_apply]
  refine congrArg x9 (funext fun a => Fin.ext ?_)
  have hc := c.isLt
  match a with
  | ⟨0, _⟩ => rfl
  | ⟨1, _⟩ => show c.val % 10 = c.val; omega

theorem layer2_dot (g : Fin 512) (c : Fin 10) :
    val_main_v162 (F := Ideal) x0 x1 x2 x3 x4 x5 x6 x7 x8 x10 x11 x12 (ix2 g c)
      = ∑ h : Fin 64, (∑ n : Fin 65536, if x12 (ix1 n) = BitVec.ofNat 32 g.val
          then val_main_v67 (F := Ideal) x0 x1 x2 x3 x4 x5 x6 x7 x10 x11 (ix2 n h) else 0) * x8 (ix3 2 h c) := by
  rw [val_main_v162_apply]
  refine Finset.sum_congr rfl fun h _ => ?_
  have hl : lidx_main_v162 (ix2 g c) h = ix2 g h :=
    funext fun a => Fin.ext (by match a with | ⟨0, _⟩ => rfl | ⟨1, _⟩ => rfl)
  have hw : idx_main_v160 (idx_main_v161 (ridx_main_v162 (ix2 g c) h)) = ix3 2 h c :=
    funext fun a => Fin.ext (by
      have hh := h.isLt; have hc := c.isLt
      match a with
      | ⟨0, _⟩ => rfl
      | ⟨1, _⟩ => show (h.val * 10 + c.val) / 10 % 64 = h.val; omega
      | ⟨2, _⟩ => show (h.val * 10 + c.val) % 10 = c.val; omega)
  rw [hl, val_main_v161_apply, val_main_v160_apply, hw]
  unfold val_main_v159 val_main_v157 val_main_cst_13 val_main_v158
  rw [pooled_apply]

theorem layer2_bias (g : Fin 512) (c : Fin 10) : val_main_v167 (F := Ideal) x9 (ix2 g c) = x9 (ix2 2 c) := by
  rw [val_main_v167_apply, val_main_v166_apply, val_main_v165_apply, val_main_v164_apply]
  refine congrArg x9 (funext fun a => Fin.ext ?_)
  have hc := c.isLt
  match a with
  | ⟨0, _⟩ => rfl
  | ⟨1, _⟩ => show c.val % 10 = c.val; omega

theorem layer3_dot (g : Fin 512) (c : Fin 10) :
    val_main_v174 (F := Ideal) x0 x1 x2 x3 x4 x5 x6 x7 x8 x10 x11 x12 (ix2 g c)
      = ∑ h : Fin 64, (∑ n : Fin 65536, if x12 (ix1 n) = BitVec.ofNat 32 g.val
          then val_main_v99 (F := Ideal) x0 x1 x2 x3 x4 x5 x6 x7 x10 x11 (ix2 n h) else 0) * x8 (ix3 3 h c) := by
  rw [val_main_v174_apply]
  refine Finset.sum_congr rfl fun h _ => ?_
  have hl : lidx_main_v174 (ix2 g c) h = ix2 g h :=
    funext fun a => Fin.ext (by match a with | ⟨0, _⟩ => rfl | ⟨1, _⟩ => rfl)
  have hw : idx_main_v172 (idx_main_v173 (ridx_main_v174 (ix2 g c) h)) = ix3 3 h c :=
    funext fun a => Fin.ext (by
      have hh := h.isLt; have hc := c.isLt
      match a with
      | ⟨0, _⟩ => rfl
      | ⟨1, _⟩ => show (h.val * 10 + c.val) / 10 % 64 = h.val; omega
      | ⟨2, _⟩ => show (h.val * 10 + c.val) % 10 = c.val; omega)
  rw [hl, val_main_v173_apply, val_main_v172_apply, hw]
  unfold val_main_v171 val_main_v169 val_main_cst_14 val_main_v170
  rw [pooled_apply]

theorem layer3_bias (g : Fin 512) (c : Fin 10) : val_main_v179 (F := Ideal) x9 (ix2 g c) = x9 (ix2 3 c) := by
  rw [val_main_v179_apply, val_main_v178_apply, val_main_v177_apply, val_main_v176_apply]
  refine congrArg x9 (funext fun a => Fin.ext ?_)
  have hc := c.isLt
  match a with
  | ⟨0, _⟩ => rfl
  | ⟨1, _⟩ => show c.val % 10 = c.val; omega

theorem layer4_dot (g : Fin 512) (c : Fin 10) :
    val_main_v186 (F := Ideal) x0 x1 x2 x3 x4 x5 x6 x7 x8 x10 x11 x12 (ix2 g c)
      = ∑ h : Fin 64, (∑ n : Fin 65536, if x12 (ix1 n) = BitVec.ofNat 32 g.val
          then val_main_v131 (F := Ideal) x0 x1 x2 x3 x4 x5 x6 x7 x10 x11 (ix2 n h) else 0) * x8 (ix3 4 h c) := by
  rw [val_main_v186_apply]
  refine Finset.sum_congr rfl fun h _ => ?_
  have hl : lidx_main_v186 (ix2 g c) h = ix2 g h :=
    funext fun a => Fin.ext (by match a with | ⟨0, _⟩ => rfl | ⟨1, _⟩ => rfl)
  have hw : idx_main_v184 (idx_main_v185 (ridx_main_v186 (ix2 g c) h)) = ix3 4 h c :=
    funext fun a => Fin.ext (by
      have hh := h.isLt; have hc := c.isLt
      match a with
      | ⟨0, _⟩ => rfl
      | ⟨1, _⟩ => show (h.val * 10 + c.val) / 10 % 64 = h.val; omega
      | ⟨2, _⟩ => show (h.val * 10 + c.val) % 10 = c.val; omega)
  rw [hl, val_main_v185_apply, val_main_v184_apply, hw]
  unfold val_main_v183 val_main_v181 val_main_cst_15 val_main_v182
  rw [pooled_apply]

theorem layer4_bias (g : Fin 512) (c : Fin 10) : val_main_v191 (F := Ideal) x9 (ix2 g c) = x9 (ix2 4 c) := by
  rw [val_main_v191_apply, val_main_v190_apply, val_main_v189_apply, val_main_v188_apply]
  refine congrArg x9 (funext fun a => Fin.ext ?_)
  have hc := c.isLt
  match a with
  | ⟨0, _⟩ => rfl
  | ⟨1, _⟩ => show c.val % 10 = c.val; omega

theorem ref_score :
    val_main_v192 (F := Ideal) x0 x1 x2 x3 x4 x5 x6 x7 x8 x9 x10 x11 x12
      = Cert.Spec.score
          (Cert.Spec.stack5 (val_main_v3 (F := Ideal) x0 x2 x3) (val_main_v35 (F := Ideal) x0 x1 x2 x3 x4 x5 x6 x7 x10 x11)
            (val_main_v67 (F := Ideal) x0 x1 x2 x3 x4 x5 x6 x7 x10 x11) (val_main_v99 (F := Ideal) x0 x1 x2 x3 x4 x5 x6 x7 x10 x11)
            (val_main_v131 (F := Ideal) x0 x1 x2 x3 x4 x5 x6 x7 x10 x11))
          (fun n => x12 (ix1 n)) (fun l h k => x8 (ix3 l h k)) (fun l k => x9 (ix2 l k)) := by
  funext i
  obtain ⟨g, c, rfl⟩ : ∃ (g : Fin 512) (c : Fin 10), i = ix2 g c := ⟨i 0, i 1, eq_ix2 i⟩
  rw [val_main_v192_apply, val_main_v187_apply, val_main_v180_apply, val_main_v175_apply, val_main_v168_apply,
    val_main_v163_apply, val_main_v156_apply, val_main_v151_apply, val_main_v144_apply, val_main_v139_apply,
    layer0_dot, layer1_dot, layer2_dot, layer3_dot, layer4_dot,
    layer0_bias, layer1_bias, layer2_bias, layer3_bias, layer4_bias, score_init,
    score_apply, Fin.sum_univ_five]
  simp only [Ideal.addf_def, pooled_stack5_0, pooled_stack5_1, pooled_stack5_2, pooled_stack5_3, pooled_stack5_4,
    zero_add, add_assoc]

end Cert.ReferenceIdeal.RefSpec

end
-- ==== Proof.Ref.Agg.lean ====
/- The reference's edge-aggregation stages are the kernel program's aggregation function. -/
import proofs.«401991_j17171279249890_1_alg».proof.Proof.Gen.ReferenceIdeal.Read
import proofs.«401991_j17171279249890_1_alg».proof.Proof.KI.AggDef

noncomputable section

namespace Cert.ReferenceIdeal.RefSpec

open Cert.ReferenceIdeal Cert.ReferenceIdeal.Gen Cert.ReferenceIdeal.Read Idealize.ShloMosaic

theorem ref_agg0 (x0 : (⟨S65536x128, .f32⟩ : BufTy).Contents (Elt Ideal)) (x2 : (⟨S128x64, .f32⟩ : BufTy).Contents (Elt Ideal)) (x3 : (⟨S64, .f32⟩ : BufTy).Contents (Elt Ideal)) (x10 x11 : (⟨S1048576, .i32⟩ : BufTy).Contents (Elt Ideal)) :
    val_main_v13 (F := Ideal) x0 x2 x3 x10 x11 = Cert.KernelIdeal.HandValue.aggK (val_main_v3 (F := Ideal) x0 x2 x3) x10 x11 := by
  simp only [val_main_v13, val_main_v12, val_main_v11, val_main_v10, val_main_v9, val_main_v8, val_main_v7, val_main_v6, val_main_v5, val_main_v4, val_main_c, val_main_c_0, val_main_cst, Cert.KernelIdeal.HandValue.aggK]
  rfl

theorem ref_agg1 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v45 (F := Ideal) x0 x1 x2 x3 x4 x5 x6 x7 x10 x11 = Cert.KernelIdeal.HandValue.aggK (val_main_v35 (F := Ideal) x0 x1 x2 x3 x4 x5 x6 x7 x10 x11) x10 x11 := by
  simp only [val_main_v45, val_main_v44, val_main_v43, val_main_v42, val_main_v41, val_main_v40, val_main_v39, val_main_v38, val_main_v37, val_main_v36, val_main_c_1, val_main_c_2, val_main_cst_3, Cert.KernelIdeal.HandValue.aggK]
  rfl

theorem ref_agg2 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v77 (F := Ideal) x0 x1 x2 x3 x4 x5 x6 x7 x10 x11 = Cert.KernelIdeal.HandValue.aggK (val_main_v67 (F := Ideal) x0 x1 x2 x3 x4 x5 x6 x7 x10 x11) x10 x11 := by
  simp only [val_main_v77, val_main_v76, val_main_v75, val_main_v74, val_main_v73, val_main_v72, val_main_v71, val_main_v70, val_main_v69, val_main_v68, val_main_c_4, val_main_c_5, val_main_cst_6, Cert.KernelIdeal.HandValue.aggK]
  rfl

theorem ref_agg3 (x0 : (⟨S65536x128, .f32⟩ : BufTy).Contents (Elt Ideal)) (x1 : (⟨S65536x1, .f32⟩ : BufTy).Contents (Elt Ideal)) (x2 : (⟨S128x64, .f32⟩ : BufTy).Contents (Elt Ideal)) (x3 : (⟨S64, .f32⟩ : BufTy).Contents (Elt Ideal)) (x4 : (⟨S4x64x64, .f32⟩ : BufTy).Contents (Elt Ideal)) (x5 : (⟨S4x64, .f32⟩ : BufTy).Contents (Elt Ideal)) (x6 : (⟨S4x64x64, .f32⟩ : BufTy).Contents (Elt Ideal)) (x7 : (⟨S4x64, .f32⟩ : BufTy).Contents (Elt Ideal)) (x10 x11 : (⟨S1048576, .i32⟩ : BufTy).Contents (Elt Ideal)) :
    val_main_v109 (F := Ideal) x0 x1 x2 x3 x4 x5 x6 x7 x10 x11 = Cert.KernelIdeal.HandValue.aggK (val_main_v99 (F := Ideal) x0 x1 x2 x3 x4 x5 x6 x7 x10 x11) x10 x11 := by
  simp only [val_main_v109, val_main_v108, val_main_v107, val_main_v106, val_main_v105, val_main_v104, val_main_v103, val_main_v102, val_main_v101, val_main_v100, val_main_c_7, val_main_c_8, val_main_cst_9, Cert.KernelIdeal.HandValue.aggK]
  rfl

end Cert.ReferenceIdeal.RefSpec
-- ==== Proof.KI.Chain.lean ====
/- The kernel's result array, read region by region, is the reference's composed term of the arguments. -/
import proofs.«401991_j17171279249890_1_alg».proof.Proof.KI.Run
import proofs.«401991_j17171279249890_1_alg».proof.Proof.KI.Value0
import proofs.«401991_j17171279249890_1_alg».proof.Proof.KI.Value1
import proofs.«401991_j17171279249890_1_alg».proof.Proof.KI.Value2
import proofs.«401991_j17171279249890_1_alg».proof.Proof.KI.Value3
import proofs.«401991_j17171279249890_1_alg».proof.Proof.KI.Value4
import proofs.«401991_j17171279249890_1_alg».proof.Proof.KI.PoolValue
import proofs.«401991_j17171279249890_1_alg».proof.Proof.KI.HostRead
import proofs.«401991_j17171279249890_1_alg».proof.Proof.Ref.Fc1
import proofs.«401991_j17171279249890_1_alg».proof.Proof.Ref.Layers
import proofs.«401991_j17171279249890_1_alg».proof.Proof.Ref.Score
import proofs.«401991_j17171279249890_1_alg».proof.Proof.Ref.Agg

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

-- argument `r`'s launch contents on core `c`
abbrev arg (r : Ref sig .tc) : Buf (Elt Ideal) ((c.tc : Thread nD τ).loc r) := m ((c.tc : Thread nD τ).loc r)

set_option maxHeartbeats 4000000 in
theorem feat0 : B2 m c (Proc.devRef .tc main_v1) = Cert.ReferenceIdeal.Read.val_main_v3 (F := Ideal) (arg m c main_arg0) (arg m c main_arg2) (arg m c main_arg3) := by
  have h0 : E1 m c main_arg0 = (arg m c main_arg0) := StableHlo.after_of_writes_sub hostOps0 _ hostOps0_writes (by decide : main_arg0 ∉ hostOps0_W)
  have h2 : E1 m c main_arg2 = (arg m c main_arg2) := StableHlo.after_of_writes_sub hostOps0 _ hostOps0_writes (by decide : main_arg2 ∉ hostOps0_W)
  have hb : (fun k : Fin 64 => E1 m c main_v0 (ix2 0 k)) = fun k => (arg m c main_arg3) (ix1 k) := by
    funext k; exact host0_bias (B0 m c) k
  refine (B2_arr m c 3).trans ?_
  refine (val0 (E1 m) c).trans ?_
  refine Eq.trans ?_ (Cert.ReferenceIdeal.RefSpec.ref_fc1 (arg m c main_arg0) (arg m c main_arg2) (arg m c main_arg3)).symm
  exact congr (congr (congrArg Cert.Spec.fc1 h0) h2) hb

set_option maxHeartbeats 4000000 in
theorem feat1 : B4 m c (Proc.devRef .tc main_v22) = Cert.ReferenceIdeal.Read.val_main_v35 (F := Ideal) (arg m c main_arg0) (arg m c main_arg1) (arg m c main_arg2) (arg m c main_arg3) (arg m c main_arg4) (arg m c main_arg5) (arg m c main_arg6) (arg m c main_arg7) (arg m c main_arg10) (arg m c main_arg11) := by
  have hxin : E3 m c main_v1 = Cert.ReferenceIdeal.Read.val_main_v3 (F := Ideal) (arg m c main_arg0) (arg m c main_arg2) (arg m c main_arg3) :=
    (StableHlo.after_of_writes_sub hostOps1 _ hostOps1_writes (by decide : main_v1 ∉ hostOps1_W)).trans (feat0 m c)
  have hagg : E3 m c main_v11 = Cert.ReferenceIdeal.Read.val_main_v13 (F := Ideal) (arg m c main_arg0) (arg m c main_arg2) (arg m c main_arg3) (arg m c main_arg10) (arg m c main_arg11) := by
    refine (host1_agg (B2 m c)).trans ?_
    refine Eq.trans ?_ (Cert.ReferenceIdeal.RefSpec.ref_agg0 (arg m c main_arg0) (arg m c main_arg2) (arg m c main_arg3) (arg m c main_arg10) (arg m c main_arg11)).symm
    exact congr (congr (congrArg aggK (feat0 m c)) (B2_arg m c main_arg10 (by decide))) (B2_arg m c main_arg11 (by decide))
  have hnn : (fun n : Fin 65536 => E3 m c main_arg1 (ix2 n 0)) = fun n => (arg m c main_arg1) (ix2 n 0) := by
    funext n
    exact congrFun ((StableHlo.after_of_writes_sub hostOps1 _ hostOps1_writes (by decide : main_arg1 ∉ hostOps1_W)).trans (B2_arg m c main_arg1 (by decide))) _
  have hw1 : (fun j k : Fin 64 => E3 m c main_v19 (ix2 j k)) = fun j k => (arg m c main_arg4) (ix3 0 j k) := by
    funext j k; exact (host1_w1 (B2 m c) j k).trans (congrFun (B2_arg m c main_arg4 (by decide)) _)
  have hb1 : (fun k : Fin 64 => E3 m c main_v14 (ix2 0 k)) = fun k => (arg m c main_arg5) (ix2 0 k) := by
    funext k; exact (host1_b1 (B2 m c) k).trans (congrFun (B2_arg m c main_arg5 (by decide)) _)
  have hw2 : (fun j k : Fin 64 => E3 m c main_v21 (ix2 j k)) = fun j k => (arg m c main_arg6) (ix3 0 j k) := by
    funext j k; exact (host1_w2 (B2 m c) j k).trans (congrFun (B2_arg m c main_arg6 (by decide)) _)
  have hb2 : (fun k : Fin 64 => E3 m c main_v17 (ix2 0 k)) = fun k => (arg m c main_arg7) (ix2 0 k) := by
    funext k; exact (host1_b2 (B2 m c) k).trans (congrFun (B2_arg m c main_arg7 (by decide)) _)
  refine (B4_arr m c 7).trans ?_
  refine (val1 (E3 m) c).trans ?_
  refine Eq.trans ?_ (Cert.ReferenceIdeal.RefSpec.ref_mlp0 (arg m c main_arg0) (arg m c main_arg1) (arg m c main_arg2) (arg m c main_arg3) (arg m c main_arg4) (arg m c main_arg5) (arg m c main_arg6) (arg m c main_arg7) (arg m c main_arg10) (arg m c main_arg11)).symm
  exact congr (congr (congr (congr (congr (congr (congrArg Cert.Spec.mlp hxin) hagg) hnn) hw1) hb1) hw2) hb2

set_option maxHeartbeats 4000000 in
theorem feat2 : B6 m c (Proc.devRef .tc main_v43) = Cert.ReferenceIdeal.Read.val_main_v67 (F := Ideal) (arg m c main_arg0) (arg m c main_arg1) (arg m c main_arg2) (arg m c main_arg3) (arg m c main_arg4) (arg m c main_arg5) (arg m c main_arg6) (arg m c main_arg7) (arg m c main_arg10) (arg m c main_arg11) := by
  have hxin : E5 m c main_v22 = Cert.ReferenceIdeal.Read.val_main_v35 (F := Ideal) (arg m c main_arg0) (arg m c main_arg1) (arg m c main_arg2) (arg m c main_arg3) (arg m c main_arg4) (arg m c main_arg5) (arg m c main_arg6) (arg m c main_arg7) (arg m c main_arg10) (arg m c main_arg11) :=
    (StableHlo.after_of_writes_sub hostOps2 _ hostOps2_writes (by decide : main_v22 ∉ hostOps2_W)).trans (feat1 m c)
  have hagg : E5 m c main_v32 = Cert.ReferenceIdeal.Read.val_main_v45 (F := Ideal) (arg m c main_arg0) (arg m c main_arg1) (arg m c main_arg2) (arg m c main_arg3) (arg m c main_arg4) (arg m c main_arg5) (arg m c main_arg6) (arg m c main_arg7) (arg m c main_arg10) (arg m c main_arg11) := by
    refine (host2_agg (B4 m c)).trans ?_
    refine Eq.trans ?_ (Cert.ReferenceIdeal.RefSpec.ref_agg1 (arg m c main_arg0) (arg m c main_arg1) (arg m c main_arg2) (arg m c main_arg3) (arg m c main_arg4) (arg m c main_arg5) (arg m c main_arg6) (arg m c main_arg7) (arg m c main_arg10) (arg m c main_arg11)).symm
    exact congr (congr (congrArg aggK (feat1 m c)) (B4_arg m c main_arg10 (by decide))) (B4_arg m c main_arg11 (by decide))
  have hnn : (fun n : Fin 65536 => E5 m c main_arg1 (ix2 n 0)) = fun n => (arg m c main_arg1) (ix2 n 0) := by
    funext n
    exact congrFun ((StableHlo.after_of_writes_sub hostOps2 _ hostOps2_writes (by decide : main_arg1 ∉ hostOps2_W)).trans (B4_arg m c main_arg1 (by decide))) _
  have hw1 : (fun j k : Fin 64 => E5 m c main_v40 (ix2 j k)) = fun j k => (arg m c main_arg4) (ix3 1 j k) := by
    funext j k; exact (host2_w1 (B4 m c) j k).trans (congrFun (B4_arg m c main_arg4 (by decide)) _)
  have hb1 : (fun k : Fin 64 => E5 m c main_v35 (ix2 0 k)) = fun k => (arg m c main_arg5) (ix2 1 k) := by
    funext k; exact (host2_b1 (B4 m c) k).trans (congrFun (B4_arg m c main_arg5 (by decide)) _)
  have hw2 : (fun j k : Fin 64 => E5 m c main_v42 (ix2 j k)) = fun j k => (arg m c main_arg6) (ix3 1 j k) := by
    funext j k; exact (host2_w2 (B4 m c) j k).trans (congrFun (B4_arg m c main_arg6 (by decide)) _)
  have hb2 : (fun k : Fin 64 => E5 m c main_v38 (ix2 0 k)) = fun k => (arg m c main_arg7) (ix2 1 k) := by
    funext k; exact (host2_b2 (B4 m c) k).trans (congrFun (B4_arg m c main_arg7 (by decide)) _)
  refine (B6_arr m c 7).trans ?_
  refine (val2 (E5 m) c).trans ?_
  refine Eq.trans ?_ (Cert.ReferenceIdeal.RefSpec.ref_mlp1 (arg m c main_arg0) (arg m c main_arg1) (arg m c main_arg2) (arg m c main_arg3) (arg m c main_arg4) (arg m c main_arg5) (arg m c main_arg6) (arg m c main_arg7) (arg m c main_arg10) (arg m c main_arg11)).symm
  exact congr (congr (congr (congr (congr (congr (congrArg Cert.Spec.mlp hxin) hagg) hnn) hw1) hb1) hw2) hb2

set_option maxHeartbeats 4000000 in
theorem feat3 : B8 m c (Proc.devRef .tc main_v64) = Cert.ReferenceIdeal.Read.val_main_v99 (F := Ideal) (arg m c main_arg0) (arg m c main_arg1) (arg m c main_arg2) (arg m c main_arg3) (arg m c main_arg4) (arg m c main_arg5) (arg m c main_arg6) (arg m c main_arg7) (arg m c main_arg10) (arg m c main_arg11) := by
  have hxin : E7 m c main_v43 = Cert.ReferenceIdeal.Read.val_main_v67 (F := Ideal) (arg m c main_arg0) (arg m c main_arg1) (arg m c main_arg2) (arg m c main_arg3) (arg m c main_arg4) (arg m c main_arg5) (arg m c main_arg6) (arg m c main_arg7) (arg m c main_arg10) (arg m c main_arg11) :=
    (StableHlo.after_of_writes_sub hostOps3 _ hostOps3_writes (by decide : main_v43 ∉ hostOps3_W)).trans (feat2 m c)
  have hagg : E7 m c main_v53 = Cert.ReferenceIdeal.Read.val_main_v77 (F := Ideal) (arg m c main_arg0) (arg m c main_arg1) (arg m c main_arg2) (arg m c main_arg3) (arg m c main_arg4) (arg m c main_arg5) (arg m c main_arg6) (arg m c main_arg7) (arg m c main_arg10) (arg m c main_arg11) := by
    refine (host3_agg (B6 m c)).trans ?_
    refine Eq.trans ?_ (Cert.ReferenceIdeal.RefSpec.ref_agg2 (arg m c main_arg0) (arg m c main_arg1) (arg m c main_arg2) (arg m c main_arg3) (arg m c main_arg4) (arg m c main_arg5) (arg m c main_arg6) (arg m c main_arg7) (arg m c main_arg10) (arg m c main_arg11)).symm
    exact congr (congr (congrArg aggK (feat2 m c)) (B6_arg m c main_arg10 (by decide))) (B6_arg m c main_arg11 (by decide))
  have hnn : (fun n : Fin 65536 => E7 m c main_arg1 (ix2 n 0)) = fun n => (arg m c main_arg1) (ix2 n 0) := by
    funext n
    exact congrFun ((StableHlo.after_of_writes_sub hostOps3 _ hostOps3_writes (by decide : main_arg1 ∉ hostOps3_W)).trans (B6_arg m c main_arg1 (by decide))) _
  have hw1 : (fun j k : Fin 64 => E7 m c main_v61 (ix2 j k)) = fun j k => (arg m c main_arg4) (ix3 2 j k) := by
    funext j k; exact (host3_w1 (B6 m c) j k).trans (congrFun (B6_arg m c main_arg4 (by decide)) _)
  have hb1 : (fun k : Fin 64 => E7 m c main_v56 (ix2 0 k)) = fun k => (arg m c main_arg5) (ix2 2 k) := by
    funext k; exact (host3_b1 (B6 m c) k).trans (congrFun (B6_arg m c main_arg5 (by decide)) _)
  have hw2 : (fun j k : Fin 64 => E7 m c main_v63 (ix2 j k)) = fun j k => (arg m c main_arg6) (ix3 2 j k) := by
    funext j k; exact (host3_w2 (B6 m c) j k).trans (congrFun (B6_arg m c main_arg6 (by decide)) _)
  have hb2 : (fun k : Fin 64 => E7 m c main_v59 (ix2 0 k)) = fun k => (arg m c main_arg7) (ix2 2 k) := by
    funext k; exact (host3_b2 (B6 m c) k).trans (congrFun (B6_arg m c main_arg7 (by decide)) _)
  refine (B8_arr m c 7).trans ?_
  refine (val3 (E7 m) c).trans ?_
  refine Eq.trans ?_ (Cert.ReferenceIdeal.RefSpec.ref_mlp2 (arg m c main_arg0) (arg m c main_arg1) (arg m c main_arg2) (arg m c main_arg3) (arg m c main_arg4) (arg m c main_arg5) (arg m c main_arg6) (arg m c main_arg7) (arg m c main_arg10) (arg m c main_arg11)).symm
  exact congr (congr (congr (congr (congr (congr (congrArg Cert.Spec.mlp hxin) hagg) hnn) hw1) hb1) hw2) hb2

set_option maxHeartbeats 4000000 in
theorem feat4 : B10 m c (Proc.devRef .tc main_v85) = Cert.ReferenceIdeal.Read.val_main_v131 (F := Ideal) (arg m c main_arg0) (arg m c main_arg1) (arg m c main_arg2) (arg m c main_arg3) (arg m c main_arg4) (arg m c main_arg5) (arg m c main_arg6) (arg m c main_arg7) (arg m c main_arg10) (arg m c main_arg11) := by
  have hxin : E9 m c main_v64 = Cert.ReferenceIdeal.Read.val_main_v99 (F := Ideal) (arg m c main_arg0) (arg m c main_arg1) (arg m c main_arg2) (arg m c main_arg3) (arg m c main_arg4) (arg m c main_arg5) (arg m c main_arg6) (arg m c main_arg7) (arg m c main_arg10) (arg m c main_arg11) :=
    (StableHlo.after_of_writes_sub hostOps4 _ hostOps4_writes (by decide : main_v64 ∉ hostOps4_W)).trans (feat3 m c)
  have hagg : E9 m c main_v74 = Cert.ReferenceIdeal.Read.val_main_v109 (F := Ideal) (arg m c main_arg0) (arg m c main_arg1) (arg m c main_arg2) (arg m c main_arg3) (arg m c main_arg4) (arg m c main_arg5) (arg m c main_arg6) (arg m c main_arg7) (arg m c main_arg10) (arg m c main_arg11) := by
    refine (host4_agg (B8 m c)).trans ?_
    refine Eq.trans ?_ (Cert.ReferenceIdeal.RefSpec.ref_agg3 (arg m c main_arg0) (arg m c main_arg1) (arg m c main_arg2) (arg m c main_arg3) (arg m c main_arg4) (arg m c main_arg5) (arg m c main_arg6) (arg m c main_arg7) (arg m c main_arg10) (arg m c main_arg11)).symm
    exact congr (congr (congrArg aggK (feat3 m c)) (B8_arg m c main_arg10 (by decide))) (B8_arg m c main_arg11 (by decide))
  have hnn : (fun n : Fin 65536 => E9 m c main_arg1 (ix2 n 0)) = fun n => (arg m c main_arg1) (ix2 n 0) := by
    funext n
    exact congrFun ((StableHlo.after_of_writes_sub hostOps4 _ hostOps4_writes (by decide : main_arg1 ∉ hostOps4_W)).trans (B8_arg m c main_arg1 (by decide))) _
  have hw1 : (fun j k : Fin 64 => E9 m c main_v82 (ix2 j k)) = fun j k => (arg m c main_arg4) (ix3 3 j k) := by
    funext j k; exact (host4_w1 (B8 m c) j k).trans (congrFun (B8_arg m c main_arg4 (by decide)) _)
  have hb1 : (fun k : Fin 64 => E9 m c main_v77 (ix2 0 k)) = fun k => (arg m c main_arg5) (ix2 3 k) := by
    funext k; exact (host4_b1 (B8 m c) k).trans (congrFun (B8_arg m c main_arg5 (by decide)) _)
  have hw2 : (fun j k : Fin 64 => E9 m c main_v84 (ix2 j k)) = fun j k => (arg m c main_arg6) (ix3 3 j k) := by
    funext j k; exact (host4_w2 (B8 m c) j k).trans (congrFun (B8_arg m c main_arg6 (by decide)) _)
  have hb2 : (fun k : Fin 64 => E9 m c main_v80 (ix2 0 k)) = fun k => (arg m c main_arg7) (ix2 3 k) := by
    funext k; exact (host4_b2 (B8 m c) k).trans (congrFun (B8_arg m c main_arg7 (by decide)) _)
  refine (B10_arr m c 7).trans ?_
  refine (val4 (E9 m) c).trans ?_
  refine Eq.trans ?_ (Cert.ReferenceIdeal.RefSpec.ref_mlp3 (arg m c main_arg0) (arg m c main_arg1) (arg m c main_arg2) (arg m c main_arg3) (arg m c main_arg4) (arg m c main_arg5) (arg m c main_arg6) (arg m c main_arg7) (arg m c main_arg10) (arg m c main_arg11)).symm
  exact congr (congr (congr (congr (congr (congr (congrArg Cert.Spec.mlp hxin) hagg) hnn) hw1) hb1) hw2) hb2

theorem B10_main_v1 : B10 m c (Proc.devRef .tc main_v1) = B2 m c (Proc.devRef .tc main_v1) :=
  (B10_keep m c main_v1 (by decide)).trans <|
  (StableHlo.after_of_writes_sub hostOps4 _ hostOps4_writes (by decide : main_v1 ∉ hostOps4_W)).trans <|
  (B8_keep m c main_v1 (by decide)).trans <|
  (StableHlo.after_of_writes_sub hostOps3 _ hostOps3_writes (by decide : main_v1 ∉ hostOps3_W)).trans <|
  (B6_keep m c main_v1 (by decide)).trans <|
  (StableHlo.after_of_writes_sub hostOps2 _ hostOps2_writes (by decide : main_v1 ∉ hostOps2_W)).trans <|
  (B4_keep m c main_v1 (by decide)).trans <|
  (StableHlo.after_of_writes_sub hostOps1 _ hostOps1_writes (by decide : main_v1 ∉ hostOps1_W))
theorem B10_main_v22 : B10 m c (Proc.devRef .tc main_v22) = B4 m c (Proc.devRef .tc main_v22) :=
  (B10_keep m c main_v22 (by decide)).trans <|
  (StableHlo.after_of_writes_sub hostOps4 _ hostOps4_writes (by decide : main_v22 ∉ hostOps4_W)).trans <|
  (B8_keep m c main_v22 (by decide)).trans <|
  (StableHlo.after_of_writes_sub hostOps3 _ hostOps3_writes (by decide : main_v22 ∉ hostOps3_W)).trans <|
  (B6_keep m c main_v22 (by decide)).trans <|
  (StableHlo.after_of_writes_sub hostOps2 _ hostOps2_writes (by decide : main_v22 ∉ hostOps2_W))
theorem B10_main_v43 : B10 m c (Proc.devRef .tc main_v43) = B6 m c (Proc.devRef .tc main_v43) :=
  (B10_keep m c main_v43 (by decide)).trans <|
  (StableHlo.after_of_writes_sub hostOps4 _ hostOps4_writes (by decide : main_v43 ∉ hostOps4_W)).trans <|
  (B8_keep m c main_v43 (by decide)).trans <|
  (StableHlo.after_of_writes_sub hostOps3 _ hostOps3_writes (by decide : main_v43 ∉ hostOps3_W))
theorem B10_main_v64 : B10 m c (Proc.devRef .tc main_v64) = B8 m c (Proc.devRef .tc main_v64) :=
  (B10_keep m c main_v64 (by decide)).trans <|
  (StableHlo.after_of_writes_sub hostOps4 _ hostOps4_writes (by decide : main_v64 ∉ hostOps4_W))

set_option maxHeartbeats 8000000 in
theorem result_eq : (dat5 (E11 m) c).arrAt 4 cfg5.N = Cert.ReferenceIdeal.Read.val_main_v192 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  have e0 : B10 m c (Proc.devRef .tc main_v1) = _ := (B10_main_v1 m c).trans (feat0 m c)
  have e1 : B10 m c (Proc.devRef .tc main_v22) = _ := (B10_main_v22 m c).trans (feat1 m c)
  have e2 : B10 m c (Proc.devRef .tc main_v43) = _ := (B10_main_v43 m c).trans (feat2 m c)
  have e3 : B10 m c (Proc.devRef .tc main_v64) = _ := (B10_main_v64 m c).trans (feat3 m c)
  have e4 : B10 m c (Proc.devRef .tc main_v85) = _ := feat4 m c
  have hf : (fun (l : Fin 5) (n : Fin 65536) (h : Fin 64) => E11 m c main_v91 (ix3 l n h))
      = Cert.Spec.stack5 (Cert.ReferenceIdeal.Read.val_main_v3 (F := Ideal) (arg m c main_arg0) (arg m c main_arg2) (arg m c main_arg3))
          (Cert.ReferenceIdeal.Read.val_main_v35 (F := Ideal) (arg m c main_arg0) (arg m c main_arg1) (arg m c main_arg2) (arg m c main_arg3) (arg m c main_arg4) (arg m c main_arg5) (arg m c main_arg6) (arg m c main_arg7) (arg m c main_arg10) (arg m c main_arg11)) (Cert.ReferenceIdeal.Read.val_main_v67 (F := Ideal) (arg m c main_arg0) (arg m c main_arg1) (arg m c main_arg2) (arg m c main_arg3) (arg m c main_arg4) (arg m c main_arg5) (arg m c main_arg6) (arg m c main_arg7) (arg m c main_arg10) (arg m c main_arg11))
          (Cert.ReferenceIdeal.Read.val_main_v99 (F := Ideal) (arg m c main_arg0) (arg m c main_arg1) (arg m c main_arg2) (arg m c main_arg3) (arg m c main_arg4) (arg m c main_arg5) (arg m c main_arg6) (arg m c main_arg7) (arg m c main_arg10) (arg m c main_arg11)) (Cert.ReferenceIdeal.Read.val_main_v131 (F := Ideal) (arg m c main_arg0) (arg m c main_arg1) (arg m c main_arg2) (arg m c main_arg3) (arg m c main_arg4) (arg m c main_arg5) (arg m c main_arg6) (arg m c main_arg7) (arg m c main_arg10) (arg m c main_arg11)) := by
    funext l n h
    refine (host5_feats (B10 m c) l n h).trans ?_
    exact congrFun (congrFun (congrFun (congr (congr (congr (congr (congrArg Cert.Spec.stack5 e0) e1) e2) e3) e4) l) n) h
  have hi : (fun n : Fin 65536 => E11 m c main_arg12 (ix1 n)) = fun n => (arg m c main_arg12) (ix1 n) := by
    funext n
    exact congrFun ((StableHlo.after_of_writes_sub hostOps5 _ hostOps5_writes (by decide : main_arg12 ∉ hostOps5_W)).trans (B10_arg m c main_arg12 (by decide))) _
  have hw : (fun (l : Fin 5) (h : Fin 64) (k : Fin 10) => E11 m c main_arg8 (ix3 l h k)) = fun l h k => (arg m c main_arg8) (ix3 l h k) := by
    funext l h k
    exact congrFun ((StableHlo.after_of_writes_sub hostOps5 _ hostOps5_writes (by decide : main_arg8 ∉ hostOps5_W)).trans (B10_arg m c main_arg8 (by decide))) _
  have hb : (fun (l : Fin 5) (k : Fin 10) => E11 m c main_v92 (ix3 l 0 k)) = fun l k => (arg m c main_arg9) (ix2 l k) := by
    funext l k
    exact (host5_bias (B10 m c) l k).trans (congrFun (B10_arg m c main_arg9 (by decide)) _)
  refine (val5 (E11 m) c).trans ?_
  refine Eq.trans ?_ (Cert.ReferenceIdeal.RefSpec.ref_score (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12)).symm
  exact congr (congr (congr (congrArg Cert.Spec.score hf) hi) hw) hb

end Cert.KernelIdeal.HandValue

end
-- ==== Proof.lean ====
/- The five claims: the three frames, the empty idealization ledger, and the equality of the two programs' scores on the extended reals. -/
import proofs.«401991_j17171279249890_1_alg».proof.Defs
import proofs.«401991_j17171279249890_1_alg».proof.Proof.Gen.Kernel
import proofs.«401991_j17171279249890_1_alg».proof.Proof.Gen.KernelIdeal
import proofs.«401991_j17171279249890_1_alg».proof.Proof.Gen.ReferenceIdeal
import proofs.«401991_j17171279249890_1_alg».proof.Proof.Gen.Pre_finite_inputs
import proofs.«401991_j17171279249890_1_alg».proof.Proof.K.Run
import proofs.«401991_j17171279249890_1_alg».proof.Proof.KI.Run
import proofs.«401991_j17171279249890_1_alg».proof.Proof.KI.Chain
import proofs.«401991_j17171279249890_1_alg».proof.Proof.Gen.ReferenceIdeal.Run
import proofs.«401991_j17171279249890_1_alg».proof.Proof.Gen.ReferenceIdeal.Read
import Idealize.ShloMosaic.Adequacy
import Idealize.ShloMosaic.Init

noncomputable section

namespace Cert.Proof

open Idealize.ShloMosaic Idealize.SL.Sem

theorem frame_k : Cert.frame_Kernel :=
  fun m ρ _ => (θ_run Cert.Kernel.defs _ _).mono (fun _ h c => (h c).2) (Cert.Kernel.Hand.value_all (F := Bits) m ρ)

theorem frame_ki : Cert.frame_KernelIdeal :=
  fun m ρ _ => (θ_run Cert.KernelIdeal.defs _ _).mono (fun _ h c => (h c).2) (Cert.KernelIdeal.Hand.value_all (F := Ideal) m ρ)

theorem frame_ri : Cert.frame_ReferenceIdeal :=
  fun m ρ _ => (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨_, Cert.KernelIdeal.Hand.value_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v192_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.KernelIdeal.HandValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
